-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg1 : IVec S800000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg1 main_v19
  let main_c_7 : IVec S_ 32 := constantI S_ 32 50000#32
  let main_v21 : IVec S800000 32 := broadcastInDim S800000 ![] bcast_S_S800000 main_c_7
  let main_v22 : IVec S800000 1 := cmpi .slt main_arg1 main_v21
  let main_v23 : IVec S800000 1 := andi main_v20 main_v22
  let main_c_8 : IVec S_ 1 := constantI S_ 1 1#1
  let main_v24 : IVec S_ 1 := (fun x v => Host.reduce IntOp.andi x v reducesTo_S800000_S_d0 h_S_) main_v23 main_c_8
  let main_v25 : IVec S_ 1 := andi main_v18 main_v24
  main_v25

def fn {F : FTy → Type} [FloatOps F] (main_arg0 : FVec F S50000x128 .f32) (main_arg1 : IVec S800000 32) (main_arg2 : IVec S800000 32) (main_arg3 : FVec F S800000 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S_ : Shape := ⟨0, ![]⟩
abbrev S50176x128 : Shape := ⟨2, ![50176, 128]⟩
abbrev S802816 : Shape := ⟨1, ![802816]⟩
abbrev S50176x64 : Shape := ⟨2, ![50176, 64]⟩
abbrev S512x128 : Shape := ⟨2, ![512, 128]⟩
abbrev S512x64 : Shape := ⟨2, ![512, 64]⟩
abbrev S802816x64 : Shape := ⟨2, ![802816, 64]⟩
abbrev S8192 : Shape := ⟨1, ![8192]⟩
abbrev S8192x64 : Shape := ⟨2, ![8192, 64]⟩
abbrev S1x512 : Shape := ⟨2, ![1, 512]⟩
abbrev S8192x1 : Shape := ⟨2, ![8192, 1]⟩
abbrev S8192x512 : Shape := ⟨2, ![8192, 512]⟩
abbrev S1x64 : Shape := ⟨2, ![1, 64]⟩
abbrev S50000x64 : Shape := ⟨2, ![50000, 64]⟩

abbrev nBuf : Space → Nat
  | .hbm => 22
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S_, .i32⟩
  | .hbm, ⟨7, _⟩ => ⟨S_, .f32⟩
  | .hbm, ⟨8, _⟩ => ⟨S50176x128, .f32⟩
  | .hbm, ⟨9, _⟩ => ⟨S_, .i32⟩
  | .hbm, ⟨10, _⟩ => ⟨S_, .i32⟩
  | .hbm, ⟨11, _⟩ => ⟨S802816, .i32⟩
  | .hbm, ⟨12, _⟩ => ⟨S_, .i32⟩
  | .hbm, ⟨13, _⟩ => ⟨S_, .i32⟩
  | .hbm, ⟨14, _⟩ => ⟨S802816, .i32⟩
  | .hbm, ⟨15, _⟩ => ⟨S_, .i32⟩
  | .hbm, ⟨16, _⟩ => ⟨S_, .f32⟩
  | .hbm, ⟨17, _⟩ => ⟨S802816, .f32⟩
  | .hbm, ⟨18, _⟩ => ⟨S50176x64, .f32⟩
  | .hbm, ⟨19, _⟩ => ⟨S802816x64, .f32⟩
  | .hbm, ⟨20, _⟩ => ⟨S50176x64, .f32⟩
  | .hbm, ⟨21, _⟩ => ⟨S50000x64, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S512x64, .f32⟩
  | .local _ .vmem, ⟨4, _⟩ => ⟨S512x64, .f32⟩
  | .local _ .vmem, ⟨5, _⟩ => ⟨S8192, .i32⟩
  | .local _ .vmem, ⟨6, _⟩ => ⟨S8192, .i32⟩
  | .local _ .vmem, ⟨7, _⟩ => ⟨S8192, .f32⟩
  | .local _ .vmem, ⟨8, _⟩ => ⟨S8192, .f32⟩
  | .local _ .vmem, ⟨9, _⟩ => ⟨S512x64, .f32⟩
  | .local _ .vmem, ⟨10, _⟩ => ⟨S512x64, .f32⟩
  | .local _ .vmem, ⟨11, _⟩ => ⟨S8192x64, .f32⟩
  | .local _ .vmem, ⟨12, _⟩ => ⟨S8192x64, .f32⟩
  | .local _ .vmem, ⟨13, _⟩ => ⟨S8192x64, .f32⟩
  | .local _ .vmem, ⟨14, _⟩ => ⟨S8192, .i32⟩
  | .local _ .vmem, ⟨15, _⟩ => ⟨S8192, .i32⟩
  | .local _ .vmem, ⟨16, _⟩ => ⟨S8192x64, .f32⟩
  | .local _ .vmem, ⟨17, _⟩ => ⟨S8192x64, .f32⟩
  | .local _ .vmem, ⟨18, _⟩ => ⟨S64, .f32⟩
  | .local _ .vmem, ⟨19, _⟩ => ⟨S512x64, .f32⟩
  | .local _ .vmem, ⟨20, _⟩ => ⟨S512x64, .f32⟩
  | .local _ .vmem, ⟨21, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_c_2 : Ref sig .tc := ⟨.hbm, 15, rfl⟩
abbrev main_call3_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![98, 98], ![false, false]⟩

def k1_cond2 (i : grid1.Coords) : BitVec 1 :=
  let arg1 : BitVec 32 := BitVec.ofNat 32 (i 1).val
  let c97_i32 : BitVec 32 := 97#32
  let v25 : BitVec 1 := Scalar.cmpi .eq arg1 c97_i32
  let v26 : BitVec 32 := Scalar.extui v25
  let c0_i32_7 : BitVec 32 := 0#32
  let v27 : BitVec 1 := Scalar.cmpi .ne v26 c0_i32_7
  v27

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8192x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![98, 98], ![false, false]⟩

def k2_cond2 (i : grid2.Coords) : BitVec 1 :=
  let arg1 : BitVec 32 := BitVec.ofNat 32 (i 1).val
  let c97_i32 : BitVec 32 := 97#32
  let v25 : BitVec 1 := Scalar.cmpi .eq arg1 c97_i32
  let v26 : BitVec 32 := Scalar.extui v25
  let c0_i32_7 : BitVec 32 := 0#32
  let v27 : BitVec 1 := Scalar.cmpi .ne v26 c0_i32_7
  v27

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  pads_S50000x128_S50176x128_01760_000 : S50000x128.Pads (![0, 0] : Fin 2 → Nat) ![176, 0] ![0, 0] S50176x128
  h_S_ : 0 < S_.numel
  pads_S800000_S802816_028160 : S800000.Pads (![0] : Fin 1 → Nat) ![2816] ![0] S802816
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S512x64_S512x64_0_0 : ∀ a, (![0, 0] : Fin 2 → Nat) a + S512x64.size a ≤ S512x64.size a
  h_S512x64 : 0 < S512x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  iota_S1x512_d1_w32 : S1x512.Iotas .tc 32 [1]
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x512 : S8192x1.Broadcasts S8192x512
  broadcasts_S1x512_S8192x512 : S1x512.Broadcasts S8192x512
  natLt_1_32 : 1 < 32
  shapeCasts_S512x64_S512x64 : S512x64.ShapeCasts S512x64
  broadcasts_S8192x1_S8192x64 : S8192x1.Broadcasts S8192x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  slices_S50176x64_S50000x64_0_0 : S50176x64.Slices ![0, 0] S50000x64
  dot_S512x128_S128x64_S512x64_1_0_0_1_n_n_wf : DotDims.WF S512x128 S128x64 S512x64 [1] [0] [0] [1] [] []
  dot_S8192x512_S512x64_S8192x64_1_0_0_1_n_n_wf : DotDims.WF S8192x512 S512x64 S8192x64 [1] [0] [0] [1] [] []
  dot_S8192x512_S8192x64_S512x64_0_0_1_1_n_n_wf : DotDims.WF S8192x512 S8192x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S50176x128.size a
  hwx0_0 : ∀ i : grid0.Coords, EltTy.bits .f32 = 32 ∨ (Rect.block (s := S50176x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S50176x64.size a
  hwx0_2 : ∀ i : grid0.Coords, EltTy.bits .f32 = 32 ∨ (Rect.block (s := S50176x64) S512x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S802816.size a
  hwx1_0 : ∀ i : grid1.Coords, EltTy.bits .i32 = 32 ∨ (Rect.block (s := S802816) S8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S802816.size a
  hwx1_1 : ∀ i : grid1.Coords, EltTy.bits .f32 = 32 ∨ (Rect.block (s := S802816) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S50176x64.size a
  hwx1_2 : ∀ i : grid1.Coords, EltTy.bits .f32 = 32 ∨ (Rect.block (s := S50176x64) S512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S802816x64.size a
  hwx1_3 : ∀ i : grid1.Coords, EltTy.bits .f32 = 32 ∨ (Rect.block (s := S802816x64) S8192x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192.size a ≤ S802816.size a
  hwx2_0 : ∀ i : grid2.Coords, EltTy.bits .i32 = 32 ∨ (Rect.block (s := S802816) S8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S802816x64.size a
  hwx2_1 : ∀ i : grid2.Coords, EltTy.bits .f32 = 32 ∨ (Rect.block (s := S802816x64) S8192x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S50176x64.size a
  hwx2_3 : ∀ i : grid2.Coords, EltTy.bits .f32 = 32 ∨ (Rect.block (s := S50176x64) S512x64.size (cc2_transform_3 i) (hinb2_3 i)).WholeWords (EltTy.packing .f32)

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S8192x512_S512x64_S8192x64_1_0_0_1_n_n : DotDims S8192x512 S512x64 S8192x64 where
  lhsContracting := [1]
  rhsContracting := [0]
  lhsNonContracting := [0]
  rhsNonContracting := [1]
  lhsBatch := []
  rhsBatch := []
  wf := dot_S8192x512_S512x64_S8192x64_1_0_0_1_n_n_wf
def dot_S8192x512_S8192x64_S512x64_0_0_1_1_n_n : DotDims S8192x512 S8192x64 S512x64 where
  lhsContracting := [0]
  rhsContracting := [0]
  lhsNonContracting := [1]
  rhsNonContracting := [1]
  lhsBatch := []
  rhsBatch := []
  wf := dot_S8192x512_S8192x64_S512x64_0_0_1_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v2) S8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S50000x64 : Shape := ⟨2, ![50000, 64]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S50000x64, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S800000x64, .f32⟩
  | .hbm, ⟨19, _⟩ => ⟨S_, .f32⟩
  | .hbm, ⟨20, _⟩ => ⟨S50000x64, .f32⟩
  | .hbm, ⟨21, _⟩ => ⟨S800000x1, .i32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KB.R0.lean ====
import proofs.«405544_j71923522339430_1_alg».proof.Proof.Gen.Kernel.Launch
import proofs.«405544_j71923522339430_1_alg».proof.Proof.Gen.Kernel.Skeleton
import proofs.«405544_j71923522339430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x128 := Rect.unit (s := S512x128) ![0, 0] S512x128.size inb_S512x128_S512x128_0_0
abbrev r0_w : Rect S128x64 := Rect.unit (s := S128x64) ![0, 0] S128x64.size inb_S128x64_S128x64_0_0
abbrev r0_o : Rect S512x64 := Rect.unit (s := S512x64) ![0, 0] S512x64.size inb_S512x64_S512x64_0_0

def out0_2 (x0 : Vec F S512x128 .f32) (x1 : Vec F S128x64 .f32) : Vec F S512x64 .f32 :=
  View.canon [⟨r0_o, k0_pay1 (View.ld x0 r0_x) (View.ld x1 r0_w)⟩]

theorem cover0_2 (p0 : Vec F S512x64 .f32) (y : S512x64.Idx) :
    ∃ pc ∈ ([⟨r0_o, p0⟩] : List (View.Piece (Elt F) S512x64 .f32)), y ∈ pc.1.set :=
  View.cover_of_tiled [⟨r0_o, p0⟩] S512x64.size (by rfl) y

set_option maxHeartbeats 1000000 in

theorem sound_kernel0 (c : Dev nD) (E : Set ℕ) (i : grid0.Coords) (arg1 : Memref sig .tc .vmem S512x128 .f32) (harg1 : arg1.IsWhole)
    (arg2 : Memref sig .tc .vmem S128x64 .f32) (harg2 : arg2.IsWhole) (arg3 : Memref sig .tc .vmem S512x64 .f32) (harg3 : arg3.IsWhole)
    (x0 : Vec F S512x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Conv

end
-- ==== Proof.KB.R1Runs.lean ====
import proofs.«405544_j71923522339430_1_alg».proof.Proof.Gen.Kernel.Launch
import proofs.«405544_j71923522339430_1_alg».proof.Proof.Gen.Kernel.Skeleton
import proofs.«405544_j71923522339430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 98 = 0 :=
  (by decide +kernel : ∀ t : Fin grid1.N, cond1_0 (grid1.coords t) ↔ t.val % 98 = 0)

abbrev cond1_1 (i : grid1.Coords) : Prop := k1_cond2 i = 1#1

theorem hcond1_1 : ∀ t : Fin cfg1.N, cond1_1 (grid1.coords t) ↔ t.val % 98 = 97 :=
  (by decide +kernel : ∀ t : Fin grid1.N, cond1_1 (grid1.coords t) ↔ t.val % 98 = 97)

theorem idleAt1_3 (i : grid1.Coords) (h : ¬cond1_1 i) : cfg1.idle 3 i = true := by
  show (!(k1_cond2 i == 1#1)) = true
  rw [Bool.not_eq_true', beq_eq_false_iff_ne]; exact h

theorem noFlush1_3 (t : Fin cfg1.N) (h : ¬cond1_1 (grid1.coords t)) : (cfg1.win 3).flush t = false := by
  rw [← Bool.not_eq_true]; intro hf
  exact h ((hcond1_1 t).mpr ((flush1_3 t).mp hf))

theorem liveAt1_3 (i : grid1.Coords) (h : cond1_1 i) : cfg1.idle 3 i = false := by
  show (!(k1_cond2 i == 1#1)) = false
  rw [Bool.not_eq_false', beq_iff_eq]; exact h

abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)

abbrev scM1_0 : Memref sig .tc .vmem S8192x64 .f32 := Memref.whole cc1_scratch0

abbrev VS1_0 : View sig .tc .vmem S8192x64 .f32 := scM1_0.view

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) : (Pipeline.ΦA spec1 c : sProp 𝕄)
    = iprop(((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole]; try rfl

theorem PhiA1_split (c : Dev nD) :
    (Pipeline.ΦA spec1 c : sProp 𝕄) ⊢ iprop((∃ d, owns (c : Thread nD τ) scM1_0 fullShare d) ∗ rest1 c ∗ (∃ r, prngReg c r)) := by
  rw [PhiA1_eq]; iintro ⟨⟨HS, HR⟩, Hg⟩
  iframe HS HR; iexact Hg

theorem PhiA1_join (c : Dev nD) :
    iprop((∃ d, owns (c : Thread nD τ) scM1_0 fullShare d) ∗ rest1 c ∗ (∃ r, prngReg c r)) ⊢ (Pipeline.ΦA spec1 c : sProp 𝕄) := by
  rw [PhiA1_eq]; iintro ⟨HS, HR, Hg⟩
  iframe HS HR; iexact Hg

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.Kernel.Conv

end
-- ==== Proof.KB.R1RunA.lean ====
import proofs.«405544_j71923522339430_1_alg».proof.Proof.KB.R1Runs

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : cond1_0 i) (hc1 : ¬cond1_1 i)
    (x0 : Vec F S8192 .i32) (x1 : Vec F S8192 .f32) (x2 : Vec F S512x64 .f32) :
    Σ' (L3 : List (View.Piece (Elt F) S8192x64 .f32)), { LS0 : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Conv

end
-- ==== Proof.KB.R1RunB.lean ====
import proofs.«405544_j71923522339430_1_alg».proof.Proof.KB.R1RunA

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : ¬cond1_0 i) (hc1 : ¬cond1_1 i)
    (x0 : Vec F S8192 .i32) (x1 : Vec F S8192 .f32) (x2 : Vec F S512x64 .f32) (xs0 : Vec F S8192x64 .f32) :
    Σ' (L3 : List (View.Piece (Elt F) S8192x64 .f32)), { LS0 : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Conv

end
-- ==== Proof.KB.R1RunC.lean ====
import proofs.«405544_j71923522339430_1_alg».proof.Proof.KB.R1RunB

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : ¬cond1_0 i) (hc1 : cond1_1 i)
    (x0 : Vec F S8192 .i32) (x1 : Vec F S8192 .f32) (x2 : Vec F S512x64 .f32) (xs0 : Vec F S8192x64 .f32) :
    Σ' (L3 : List (View.Piece (Elt F) S8192x64 .f32)), { LS0 : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Conv

end
-- ==== Proof.KB.R1.lean ====
import proofs.«405544_j71923522339430_1_alg».proof.Proof.KB.R1RunC

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

private theorem hz1_1 : (![0] : Fin 1 → ℕ) = fun _ => 0 := by funext a; fin_cases a; rfl
private theorem hz1_2 : (![0, 0] : Fin 2 → ℕ) = fun _ => 0 := by funext a; fin_cases a <;> rfl

section Pieces
variable {c : Dev nD} {i : grid1.Coords} {arg2 : Memref sig .tc .vmem S8192 .i32} {harg2 : arg2.IsWhole} {arg3 : Memref sig .tc .vmem S8192 .f32} {harg3 : arg3.IsWhole} {arg4 : Memref sig .tc .vmem S512x64 .f32} {harg4 : arg4.IsWhole} {arg5 : Memref sig .tc .vmem S8192x64 .f32} {harg5 : arg5.IsWhole} {arg6 : Memref sig .tc .vmem S8192x64 .f32} {harg6 : arg6.IsWhole}
  {x0 : Vec F S8192 .i32} {x1 : Vec F S8192 .f32} {x2 : Vec F S512x64 .f32} {xs0 : Vec F S8192x64 .f32}
  {κ : Kind} {sp : Space} {v : View sig κ sp S8192x64 .f32} (f : v.ty.Contents (Elt F))

/-- At the first point of a run the accumulator is left at the zero block updated by the point's product, -/
theorem spiece1_A (hc0 : cond1_0 i) (hc1 : ¬cond1_1 i) :
    v.read (Elt F) (v.writes (Elt F) f (kernelRun1_A c i arg2 harg2 arg3 harg3 arg4 harg4 arg5 harg5 arg6 harg6 hc0 hc1 x0 x1 x2).2.1) = k1_pay2 i x0 x2 (k1_pay1 (F := F)) := by
  refine (View.read_writes_eq_canon _ _ _ (View.cover_of_tiledL _ S8192x64.size ?_)).trans ?_
  · sl_kernel_rfl
  unfold kernelRun1_A; dsimp only; sl_unfold_words
  rw [View.canon_cons_unit_zero (S := S8192x64) hz1_2, View.readCov_unit_zero (S := S8192x64) _ hz1_2]
  simp only [View.readAt_eq_ld, harg2.read_unread, harg4.read_unread, View.ld_unit_zero (S := S8192) hz1_1, View.ld_unit_zero (S := S512x64) hz1_2, View.ld_unit_zero (S := S8192x64) hz1_2]

/-- at a middle point at the update of what it held, -/
theorem spiece1_B (hc0 : ¬cond1_0 i) (hc1 : ¬cond1_1 i) :
    v.read (Elt F) (v.writes (Elt F) f (kernelRun1_B c i arg2 harg2 arg3 harg3 arg4 harg4 arg5 harg5 arg6 harg6 hc0 hc1 x0 x1 x2 xs0).2.1) = k1_pay2 i x0 x2 xs0 := by
  refine (View.read_writes_eq_canon _ _ _ (View.cover_of_tiledL _ S8192x64.size ?_)).trans ?_
  · sl_kernel_rfl
  unfold kernelRun1_B; dsimp only; sl_unfold_words
  rw [View.canon_unit_zero (S := S8192x64) hz1_2]
  simp only [View.readAt_eq_ld, harg2.read_unread, harg4.read_unread, harg6.read_unread, View.ld_unit_zero (S := S8192) hz1_1, View.ld_unit_zero (S := S512x64) hz1_2, View.ld_unit_zero (S := S8192x64) hz1_2]

/-- likewise at the last point of a run, -/
theorem spiece1_C (hc0 : ¬cond1_0 i) (hc1 : cond1_1 i) :
    v.read (Elt F) (v.writes (Elt F) f (kernelRun1_C c i arg2 harg2 arg3 harg3 arg4 harg4 arg5 harg5 arg6 harg6 hc0 hc1 x0 x1 x2 xs0).2.1) = k1_pay2 i x0 x2 xs0 := by
  refine (View.read_writes_eq_canon _ _ _ (View.cover_of_tiledL _ S8192x64.size ?_)).trans ?_
  · sl_kernel_rfl
  unfold kernelRun1_C; dsimp only; sl_unfold_words
  rw [View.canon_unit_zero (S := S8192x64) hz1_2]
  simp only [View.readAt_eq_ld, harg2.read_unread, harg4.read_unread, harg6.read_unread, View.ld_unit_zero (S := S8192) hz1_1, View.ld_unit_zero (S := S512x64) hz1_2, View.ld_unit_zero (S := S8192x64) hz1_2]

/-- where the output block is that update scaled row by row by the edge values. -/
theorem opiece1_C (hc0 : ¬cond1_0 i) (hc1 : cond1_1 i) :
    v.read (Elt F) (v.writes (Elt F) f (kernelRun1_C c i arg2 harg2 arg3 harg3 arg4 harg4 arg5 harg5 arg6 harg6 hc0 hc1 x0 x1 x2 xs0).1) = k1_pay3 (k1_pay2 i x0 x2 xs0) x1 := by
  refine (View.read_writes_eq_canon _ _ _ (View.cover_of_tiledL _ S8192x64.size ?_)).trans ?_
  · sl_kernel_rfl
  unfold kernelRun1_C; dsimp only; sl_unfold_words
  rw [View.canon_unit_zero (S := S8192x64) hz1_2, View.readCov_unit_zero (S := S8192x64) _ hz1_2]
  simp only [View.readAt_eq_ld, harg2.read_unread, harg3.read_unread, harg4.read_unread, harg6.read_unread, View.ld_unit_zero (S := S8192) hz1_1, View.ld_unit_zero (S := S512x64) hz1_2, View.ld_unit_zero (S := S8192x64) hz1_2]

end Pieces

section Regions
variable (V : (c : Dev nD) → (b : Ref sig .tc) → Buf (Elt F) (c.tc.loc b))

/-- The accumulator after point `n`: the point's update of the zero block where a run begins, else of the accumulator before. -/
def acc1 (c : Dev nD) (n : ℕ) (hn : n < cfg1.N) : Vec F S8192x64 .f32 :=
  k1_pay2 (grid1.coords ⟨n, hn⟩) (iblk1 V c 0 ⟨n, hn⟩) (iblk1 V c 2 ⟨n, hn⟩)
    (if h : n % 98 = 0 then k1_pay1 else acc1 c (n - 1) (by omega))

theorem acc1_first (c : Dev nD) (t : Fin cfg1.N) (h : t.val % 98 = 0) :
    acc1 V c t.val t.isLt = k1_pay2 (grid1.coords t) (iblk1 V c 0 t) (iblk1 V c 2 t) (k1_pay1 (F := F)) := by
  rw [acc1, dif_pos h]

theorem acc1_next (c : Dev nD) (t : Fin cfg1.N) (h : ¬ t.val % 98 = 0) :
    acc1 V c t.val t.isLt = k1_pay2 (grid1.coords t) (iblk1 V c 0 t) (iblk1 V c 2 t)
      (acc1 V c (t.val - 1) (Nat.lt_of_le_of_lt (Nat.sub_le _ _) t.isLt)) := by
  rw [acc1, dif_neg h]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := iprop((∃ d, ⌜∀ h : ¬t.val % 98 = 0, d = acc1 V c (t.val - 1) (by omega)⌝ ∗ owns c.tc scM1_0 fullShare d) ∗ rest1 c ∗ (∃ r, prngReg c r))
  q _ := fullShare
  owed _ := 0

theorem after1_3_last (c : Dev nD) (t : Fin cfg1.N) (h : t.val % 98 = 97) :
    (dat1 V c).after 3 t = k1_pay3 (acc1 V c t.val t.isLt) (iblk1 V c 1 t) := rfl

theorem hin1 (c : Dev nD) : Pipeline.ΦA spec1 c ⊢ (dat1 V c).Φ 0 :=
  (PhiA1_split c).trans (by
    dsimp only [dat1]
    iintro ⟨⟨%d, HS⟩, HR⟩
    iframe HR
    iexists d; iframe HS
    ipureintro; exact fun h => (h rfl).elim)

theorem hout1 (c : Dev nD) : (dat1 V c).Φ (Fin.last cfg1.N) ⊢ Pipeline.ΦA spec1 c :=
  .trans (by
    dsimp only [dat1]
    iintro ⟨⟨%d, -, HS⟩, HR⟩
    iframe HR
    iexists d; iexact HS) (PhiA1_join c)

theorem Phi_succ1 (c : Dev nD) (t : Fin cfg1.N) {L : List (View.Piece (Elt F) S8192x64 .f32)}
    (hL : ∀ f, VS1_0.read (Elt F) (VS1_0.writes (Elt F) f L) = acc1 V c t.val t.isLt) (P : sProp 𝕄) :
    iprop((∃ f, VS1_0.loc c.tc ↦[VS1_0.set]{fullShare} VS1_0.writes (Elt F) f L) ∗ (rest1 c ∗ ∃ r, prngReg c r) ∗ P) ⊢ iprop((dat1 V c).Φ t.succ ∗ P) := by
  dsimp only [dat1]; unfold owns
  iintro ⟨⟨%f, H⟩, HR, HP⟩
  iframe HR HP
  iexists acc1 V c t.val t.isLt; isplitr; · ipureintro; exact fun _ => rfl
  iexists _; isplitr; · ipureintro; exact hL f
  iexact H

/-- Each point turns the accumulator before it into the one after it and, where a run ends, leaves the output block at it scaled. -/
theorem sound_body1 (c : Dev nD) (t : Fin cfg1.N) :
    iprop(((∃ d, ⌜∀ h : ¬t.val % 98 = 0, d = acc1 V c (t.val - 1) (by omega)⌝ ∗ owns c.tc scM1_0 fullShare d) ∗ rest1 c ∗ (∃ r, prngReg c r))
      ∗ (dat1 V c).owesAt () t.castSucc
      ∗ (∃ d, owns c.tc (ms1_0 t) fullShare ((dat1 V c).before 0 t d))
      ∗ (∃ d, owns c.tc (ms1_1 t) fullShare ((dat1 V c).before 1 t d))
      ∗ (∃ d, owns c.tc (ms1_2 t) fullShare ((dat1 V c).before 2 t d))
      ∗ (∃ d, owns c.tc (ms1_3 t) fullShare ((dat1 V c).before 3 t d)))
    ⊢ wp frame (wpE (defs₀ (F := F)) Variants.none c none) Set.univ (bodyAt1 t) fun _ =>
      iprop((dat1 V c).Φ t.succ ∗ (dat1 V c).owesAt () t.castSucc
        ∗ owns c.tc (ms1_0 t) fullShare (iblk1 V c 0 t)
        ∗ owns c.tc (ms1_1 t) fullShare (iblk1 V c 1 t)
        ∗ owns c.tc (ms1_2 t) fullShare (iblk1 V c 2 t)
        ∗ (dat1 V c).leavesExact 3 t) := by
  simp only [before1_0_of V (dat1 V c) rfl fun _ => rfl, before1_1_of V (dat1 V c) rfl fun _ => rfl, before1_2_of V (dat1 V c) rfl fun _ => rfl]
  iintro ⟨⟨⟨%d, %hd, HS⟩, HR⟩, Ho, ⟨%d0, H0⟩, ⟨%d1, H1⟩, ⟨%d2, H2⟩, ⟨%d3, H3⟩⟩
  by_cases h1 : cond1_1 (grid1.coords t)
  · have h0 : ¬t.val % 98 = 0 := by have := (hcond1_1 t).mp h1; omega
    obtain rfl := hd h0
    unfold Dat.leavesExact; rw [liveAt1_3 _ h1]; dsimp only
    iapply (kernelRun1_C c (grid1.coords t) _ _ _ _ _ _ _ _ _ _ (mt (hcond1_0 t).mp h0) h1 (iblk1 V c 0 t) (iblk1 V c 1 t) (iblk1 V c 2 t) _).2.2 Set.univ _
    iframe H0 H1 H2 HS
    isplitl [H3]; · iexists _; iexact H3
    iintro ⟨H0, H1, H2, ⟨%f3, H3⟩, HS⟩
    iapply Phi_succ1 V c t fun f => (spiece1_C f _ h1).trans (acc1_next V c t h0).symm
    iframe HS HR Ho H0 H1 H2
    unfold owns; iexists _; iframe H3
    ipureintro
    exact (opiece1_C f3 _ h1).trans (congrArg (k1_pay3 · _) (acc1_next V c t h0).symm)
  rw [Dat.leavesExact_idle (dat1 V c) 3 t (idleAt1_3 _ h1) (noFlush1_3 t h1)]
  by_cases h0 : t.val % 98 = 0
  · iapply (kernelRun1_A c (grid1.coords t) _ _ _ _ _ _ _ _ _ _ ((hcond1_0 t).mpr h0) h1 (iblk1 V c 0 t) (iblk1 V c 1 t) (iblk1 V c 2 t)).2.2 _ Set.univ _
    iframe H0 H1 H2 H3
    isplitl [HS]; · iexists _; iexact HS
    iintro ⟨H0, H1, H2, H3, HS⟩
    iapply Phi_succ1 V c t fun f => (spiece1_A f _ h1).trans (acc1_first V c t h0).symm
    iframe HS HR Ho H0 H1 H2
    iexists _; iexact H3
  · obtain rfl := hd h0
    iapply (kernelRun1_B c (grid1.coords t) _ _ _ _ _ _ _ _ _ _ (mt (hcond1_0 t).mp h0) h1 (iblk1 V c 0 t) (iblk1 V c 1 t) (iblk1 V c 2 t) _).2.2 _ Set.univ _
    iframe H0 H1 H2 H3 HS
    iintro ⟨H0, H1, H2, H3, HS⟩
    iapply Phi_succ1 V c t fun f => (spiece1_B f _ h1).trans (acc1_next V c t h0).symm
    iframe HS HR Ho H0 H1 H2
    iexists _; iexact H3

theorem body_obligation1 (c : Dev nD) : BodyObligation (dat1 (F := F) V c) (defs₀ (F := F)) Variants.none () Set.univ := fun t => by
  rw [bigSep_W1, bigSep_W1]
  exact sound_body1 V c t

end Regions

end Cert.Kernel.Conv

end
-- ==== Proof.KB.R2Runs.lean ====
import proofs.«405544_j71923522339430_1_alg».proof.Proof.Gen.Kernel.Launch
import proofs.«405544_j71923522339430_1_alg».proof.Proof.Gen.Kernel.Skeleton
import proofs.«405544_j71923522339430_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 98 = 0 :=
  (by decide +kernel : ∀ t : Fin grid2.N, cond2_0 (grid2.coords t) ↔ t.val % 98 = 0)

abbrev cond2_1 (i : grid2.Coords) : Prop := k2_cond2 i = 1#1

theorem hcond2_1 : ∀ t : Fin cfg2.N, cond2_1 (grid2.coords t) ↔ t.val % 98 = 97 :=
  (by decide +kernel : ∀ t : Fin grid2.N, cond2_1 (grid2.coords t) ↔ t.val % 98 = 97)

theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h

theorem liveAt2_3 (t : Fin cfg2.N) (h : cond2_1 (grid2.coords t)) : cfg2.idle 3 (grid2.coords t) = false := by
  show (!(k2_cond2 (grid2.coords t) == 1#1)) = false
  rw [Bool.not_eq_false', beq_iff_eq]; exact h

theorem noFlush2_3 (t : Fin cfg2.N) (h : ¬cond2_1 (grid2.coords t)) : (cfg2.win 3).flush t = false := by
  cases hf : (cfg2.win 3).flush t with
  | false => rfl
  | true => exact absurd ((hcond2_1 t).mpr ((flush2_3 t).mp hf)) h

abbrev ms2_0 (t : Fin cfg2.N) : Memref sig .tc .vmem S8192 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)

abbrev scM2_0 : Memref sig .tc .vmem S512x64 .f32 := Memref.whole cc2_scratch0

abbrev Rest2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest2 c) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_split]; simp only [scM2_0, owns_whole]; try rfl

section Entry
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Entry

end Cert.Kernel.Conv

end
-- ==== Proof.KB.R2RunA.lean ====
import proofs.«405544_j71923522339430_1_alg».proof.Proof.KB.R2Runs

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun2_A (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : cond2_0 i) (hc1 : ¬cond2_1 i)
    (x0 : Vec F S8192 .i32) (x1 : Vec F S8192x64 .f32) (x2 : Vec F S64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Conv

end
-- ==== Proof.KB.R2RunB.lean ====
import proofs.«405544_j71923522339430_1_alg».proof.Proof.KB.R2RunA

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun2_B (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬cond2_0 i) (hc1 : ¬cond2_1 i)
    (x0 : Vec F S8192 .i32) (x1 : Vec F S8192x64 .f32) (x2 : Vec F S64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Conv

end
-- ==== Proof.KB.R2RunC.lean ====
import proofs.«405544_j71923522339430_1_alg».proof.Proof.KB.R2RunB

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in

noncomputable def kernelRun2_C (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬cond2_0 i) (hc1 : cond2_1 i)
    (x0 : Vec F S8192 .i32) (x1 : Vec F S8192x64 .f32) (x2 : Vec F S64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Conv

end
-- ==== Proof.KB.R2.lean ====
import proofs.«405544_j71923522339430_1_alg».proof.Proof.KB.R2RunC
import Idealize.ShloMosaic.Lib.Pipeline.Value

noncomputable section

namespace Cert.Kernel.Conv

open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat BodyObligation)
open Cert.Kernel Cert.Kernel.Gen

variable {F : FTy → Type} [FloatOps F]

local notation "𝕄" => MT nD τ sig Unit (Elt F) ℕ (UR sig nD τ) ℕ

theorem hz1_2 : (![0] : Fin 1 → Nat) = fun _ => 0 := funext fun a => by fin_cases a <;> rfl
theorem hz2_2 : (![0, 0] : Fin 2 → Nat) = fun _ => 0 := funext fun a => by fin_cases a <;> rfl

section Pieces
variable {c : Dev nD} {i : grid2.Coords} {arg2 : Memref sig .tc .vmem S8192 .i32} {harg2 : arg2.IsWhole} {arg3 : Memref sig .tc .vmem S8192x64 .f32} {harg3 : arg3.IsWhole} {arg4 : Memref sig .tc .vmem S64 .f32} {harg4 : arg4.IsWhole} {arg5 : Memref sig .tc .vmem S512x64 .f32} {harg5 : arg5.IsWhole} {arg6 : Memref sig .tc .vmem S512x64 .f32} {harg6 : arg6.IsWhole}
  {x0 : Vec F S8192 .i32} {x1 : Vec F S8192x64 .f32} {x2 : Vec F S64 .f32} {xs0 : Vec F S512x64 .f32}

/-- At a run's first point the accumulator holds the update of the zero block. -/
theorem sread2_A {hc0 : cond2_0 i} {hc1 : ¬cond2_1 i} (f) :
    arg6.view.read (Elt F) (arg6.view.writes (Elt F) f (kernelRun2_A c i arg2 harg2 arg3 harg3 arg4 harg4 arg5 harg5 arg6 harg6 hc0 hc1 x0 x1 x2).2.1) = k2_pay2 i x0 x1 (k2_pay1 (F := F)) := by
  refine (View.read_writes_eq_canon _ _ _ (View.cover_of_tiledL _ S512x64.size (by sl_kernel_rfl))).trans ?_
  unfold kernelRun2_A
  dsimp only
  sl_unfold_words
  rw [View.canon_cons_unit_zero (S := S512x64) hz2_2, View.readCov_unit_zero (S := S512x64) _ hz2_2]
  simp only [View.readAt_eq_ld, harg2.read_unread, harg3.read_unread, View.ld_unit_zero (S := S8192) hz1_2, View.ld_unit_zero (S := S8192x64) hz2_2]

theorem sread2_B {hc0 : ¬cond2_0 i} {hc1 : ¬cond2_1 i} (f) :
    arg6.view.read (Elt F) (arg6.view.writes (Elt F) f (kernelRun2_B c i arg2 harg2 arg3 harg3 arg4 harg4 arg5 harg5 arg6 harg6 hc0 hc1 x0 x1 x2 xs0).2.1) = k2_pay2 i x0 x1 xs0 := by
  refine (View.read_writes_eq_canon _ _ _ (View.cover_of_tiledL _ S512x64.size (by sl_kernel_rfl))).trans ?_
  unfold kernelRun2_B
  dsimp only
  (try sl_unfold_words)
  rw [View.canon_unit_zero hz2_2]
  simp only [View.readAt_eq_ld, harg2.read_unread, harg3.read_unread, harg6.read_unread, View.ld_unit_zero (S := S8192) hz1_2, View.ld_unit_zero (S := S8192x64) hz2_2, View.ld_unit_zero (S := S512x64) hz2_2]

theorem sread2_C {hc0 : ¬cond2_0 i} {hc1 : cond2_1 i} (f) :
    arg6.view.read (Elt F) (arg6.view.writes (Elt F) f (kernelRun2_C c i arg2 harg2 arg3 harg3 arg4 harg4 arg5 harg5 arg6 harg6 hc0 hc1 x0 x1 x2 xs0).2.1) = k2_pay2 i x0 x1 xs0 := by
  refine (View.read_writes_eq_canon _ _ _ (View.cover_of_tiledL _ S512x64.size (by sl_kernel_rfl))).trans ?_
  unfold kernelRun2_C
  dsimp only
  sl_unfold_words
  rw [View.canon_unit_zero hz2_2]
  simp only [View.readAt_eq_ld, harg2.read_unread, harg3.read_unread, harg6.read_unread, View.ld_unit_zero (S := S8192) hz1_2, View.ld_unit_zero (S := S8192x64) hz2_2, View.ld_unit_zero (S := S512x64) hz2_2]

/-- At a run's last point the output block equals the bias added to the updated accumulator. -/
theorem oread2_C {hc0 : ¬cond2_0 i} {hc1 : cond2_1 i} (f) :
    arg5.view.read (Elt F) (arg5.view.writes (Elt F) f (kernelRun2_C c i arg2 harg2 arg3 harg3 arg4 harg4 arg5 harg5 arg6 harg6 hc0 hc1 x0 x1 x2 xs0).1) = k2_pay3 (k2_pay2 i x0 x1 xs0) x2 := by
  refine (View.read_writes_eq_canon _ _ _ (View.cover_of_tiledL _ S512x64.size (by sl_kernel_rfl))).trans ?_
  unfold kernelRun2_C
  dsimp only
  sl_unfold_words
  rw [View.canon_unit_zero hz2_2]
  simp only [View.readAt_eq_ld, harg2.read_unread, harg3.read_unread, harg4.read_unread, harg6.read_unread, View.readCov_unit_zero (S := S512x64) _ hz2_2, View.ld_unit_zero (S := S8192) hz1_2, View.ld_unit_zero (S := S64) hz1_2, View.ld_unit_zero (S := S8192x64) hz2_2, View.ld_unit_zero (S := S512x64) hz2_2]

end Pieces

section Entry
variable (V : (c : Dev nD) → (b : Ref sig .tc) → Buf (Elt F) ((c : Thread nD τ).loc b))

/-- The accumulator after point `n`: the update of the zero block at a run's first point, of what point `n - 1` left elsewhere. -/
def acc2 (c : Dev nD) (n : ℕ) (hn : n < cfg2.N) : Vec F S512x64 .f32 :=
  k2_pay2 (grid2.coords ⟨n, hn⟩) (iblk2 V c 0 ⟨n, hn⟩) (iblk2 V c 1 ⟨n, hn⟩)
    (if h : n % 98 = 0 then k2_pay1 (F := F) else acc2 c (n - 1) (by omega))
termination_by n
decreasing_by omega

theorem acc2_first (c : Dev nD) (t : Fin cfg2.N) (h : t.val % 98 = 0) :
    acc2 V c t.val t.isLt = k2_pay2 (grid2.coords t) (iblk2 V c 0 t) (iblk2 V c 1 t) (k2_pay1 (F := F)) := by
  rw [acc2, dif_pos h]

theorem acc2_next (c : Dev nD) (t : Fin cfg2.N) (h : ¬ t.val % 98 = 0) :
    acc2 V c t.val t.isLt = k2_pay2 (grid2.coords t) (iblk2 V c 0 t) (iblk2 V c 1 t)
      (acc2 V c (t.val - 1) (Nat.lt_of_le_of_lt (Nat.sub_le _ _) t.isLt)) := by
  rw [acc2, dif_neg h]

def PhiS2 (c : Dev nD) (n : ℕ) (h : n ≤ cfg2.N) : sProp 𝕄 :=
  if hz : n = 0 then Pipeline.ΦA spec2 c
  else iprop(iprop(owns c.tc scM2_0 fullShare (acc2 V c (n - 1) (by omega)) ∗ Rest2 c) ∗ (∃ r, prngReg c r))

/-- The accumulator's contents can always be forgotten. -/
theorem PhiS2_weak (c : Dev nD) (n : ℕ) (h : n ≤ cfg2.N) : PhiS2 V c n h ⊢ Pipeline.ΦA spec2 c := by
  unfold PhiS2; split
  · rfl
  rw [PhiA2_eq]
  iintro ⟨⟨HS0, HR⟩, Hg⟩
  iframe HR Hg
  iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val t.is_le
  q _ := fullShare
  owed _ := 0

theorem A_eq2 (c : Dev nD) (w : Fin cfg2.W) : (dat2 V c).A w = V c (Pipeline.arrRef spec2 w) := by
  dsimp only [dat2]

theorem after2_3_last (c : Dev nD) (t : Fin cfg2.N) (h : t.val % 98 = 97) :
    (dat2 V c).after 3 t = k2_pay3 (acc2 V c t.val t.isLt) (iblk2 V c 2 t) := by
  dsimp only [dat2]

theorem hin2 (c : Dev nD) : Pipeline.ΦA spec2 c ⊢ (dat2 V c).Φ 0 := .rfl

theorem hout2 (c : Dev nD) : (dat2 V c).Φ (Fin.last cfg2.N) ⊢ Pipeline.ΦA spec2 c :=
  PhiS2_weak V c _ (Fin.last cfg2.N).is_le

/-- Each point takes the accumulator from what the point before left (from anything at a run's first point) to `acc2` there. -/
theorem sound_body2 (c : Dev nD) (t : Fin cfg2.N) :
    iprop(PhiS2 V c t.val t.isLt.le ∗ (dat2 V c).owesAt () t.castSucc
      ∗ (∃ d, owns c.tc (ms2_0 t) fullShare ((dat2 V c).before 0 t d))
      ∗ (∃ d, owns c.tc (ms2_1 t) fullShare ((dat2 V c).before 1 t d))
      ∗ (∃ d, owns c.tc (ms2_2 t) fullShare ((dat2 V c).before 2 t d))
      ∗ (∃ d, owns c.tc (ms2_3 t) fullShare ((dat2 V c).before 3 t d)))
    ⊢ wp frame (wpE (defs₀ (F := F)) Variants.none c none) Set.univ (bodyAt2 t) (fun _ =>
      iprop(iprop(iprop(owns c.tc scM2_0 fullShare (acc2 V c t.val t.isLt) ∗ Rest2 c) ∗ (∃ r, prngReg c r)) ∗ (dat2 V c).owesAt () t.castSucc
        ∗ owns c.tc (ms2_0 t) fullShare (iblk2 V c 0 t) ∗ owns c.tc (ms2_1 t) fullShare (iblk2 V c 1 t)
        ∗ owns c.tc (ms2_2 t) fullShare (iblk2 V c 2 t) ∗ (dat2 V c).leavesExact 3 t)) := by
  simp only [before2_0_of V (dat2 V c) (A_eq2 V c 0) (fun t => by dsimp only [dat2]), before2_1_of V (dat2 V c) (A_eq2 V c 1) (fun t => by dsimp only [dat2]), before2_2_of V (dat2 V c) (A_eq2 V c 2) (fun t => by dsimp only [dat2])]
  by_cases h0 : t.val % 98 = 0
  · have c1 := mt (hcond2_1 t).mp (show ¬t.val % 98 = 97 by omega)
    rw [Dat.leavesExact_idle (dat2 V c) 3 t (idleAt2_3 t c1) (noFlush2_3 t c1), acc2_first V c t h0]
    refine (sep_mono_left (PhiS2_weak V c _ _)).trans ?_
    rw [PhiA2_eq]
    iintro ⟨⟨⟨HS0, HR⟩, Hg⟩, Ho, ⟨%d0, H0⟩, ⟨%d1, H1⟩, ⟨%d2, H2⟩, ⟨%d3, H3⟩⟩
    iapply (kernelRun2_A _ _ _ _ _ _ _ _ _ _ _ _ ((hcond2_0 t).mpr h0) c1 _ _ _).2.2 _ _ _
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact sread2_A es0
    iexists _; iexact H3
  · have c0 := mt (hcond2_0 t).mp h0
    rw [PhiS2, dif_neg fun e => h0 (by rw [e])]
    iintro ⟨⟨⟨HS0, HR⟩, Hg⟩, Ho, ⟨%d0, H0⟩, ⟨%d1, H1⟩, ⟨%d2, H2⟩, ⟨%d3, H3⟩⟩
    by_cases h1 : t.val % 98 = 97
    · have c1 := (hcond2_1 t).mpr h1
      rw [show (dat2 V c).leavesExact 3 t = owns c.tc (ms2_3 t) fullShare ((dat2 V c).after 3 t) from by
        unfold Dat.leavesExact; rw [liveAt2_3 t c1], after2_3_last V c t h1, acc2_next V c t h0]
      iapply (kernelRun2_C _ _ _ _ _ _ _ _ _ _ _ _ c0 c1 _ _ _ _).2.2 _ _
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact sread2_C es0
      unfold owns; iexists _; isplitr
      swap; · iexact H3
      ipureintro; exact oread2_C e3
    · have c1 := mt (hcond2_1 t).mp h1
      rw [Dat.leavesExact_idle (dat2 V c) 3 t (idleAt2_3 t c1) (noFlush2_3 t c1), acc2_next V c t h0]
      iapply (kernelRun2_B _ _ _ _ _ _ _ _ _ _ _ _ c0 c1 _ _ _ _).2.2 _ _ _
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact sread2_B es0
      iexists _; iexact H3

theorem body_obligation2 (c : Dev nD) : BodyObligation (dat2 (F := F) V c) (defs₀ (F := F)) Variants.none () Set.univ := fun t => by
  rw [bigSep_W2, bigSep_W2]
  exact sound_body2 V c t

end Entry

end Cert.Kernel.Conv

end
-- ==== Proof.KB.Run.lean ====
import proofs.«405544_j71923522339430_1_alg».proof.Proof.KB.R0
import proofs.«405544_j71923522339430_1_alg».proof.Proof.KB.R1
import proofs.«405544_j71923522339430_1_alg».proof.Proof.KB.R2
import proofs.«405544_j71923522339430_1_alg».proof.Proof.Gen.Kernel.Regions

noncomputable section

namespace Cert.Kernel.Conv

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) (c : Dev nD) (b : Ref sig .tc) : Buf (Elt F) ((c : Thread nD τ).loc b) := W c b

abbrev W0 : Dev nD → Valuation τ sig (Elt F) := V0 m
abbrev W8 : Dev nD → Valuation τ sig (Elt F) := Gen.V8 m
abbrev V8 := rd (W8 m)
/-- What a region leaves: its arrays as written back, every other reference as entered. -/
def W9 (c : Dev nD) : Valuation τ sig (Elt F) :=
  withArrays spec0 c (W8 m c) fun w => (dat0 (V8 m) c).arrAt w cfg0.N
abbrev V9 := rd (W9 m)
def W10 (c : Dev nD) : Valuation τ sig (Elt F) :=
  withArrays spec1 c (W9 m c) fun w => (dat1 (V9 m) c).arrAt w cfg1.N
abbrev V10 := rd (W10 m)
def W11 (c : Dev nD) : Valuation τ sig (Elt F) :=
  withArrays spec2 c (W10 m c) fun w => (dat2 (V10 m) c).arrAt w cfg2.N
abbrev V11 := rd (W11 m)
abbrev W12 (c : Dev nD) : Valuation τ sig (Elt F) := StableHlo.after hostOps3 (W11 m c)

theorem W9_arr (c : Dev nD) (w : Fin cfg0.W) :
    W9 m c (Proc.devRef .tc (arrRef spec0 w)) = (dat0 (V8 m) c).arrAt w cfg0.N :=
  withArrays_arr spec0 launch0.win.arr_inj c _ _ w
theorem W9_of_ne (c : Dev nD) (b : Ref sig .tc) (hb : ∀ w, arrRef spec0 w ≠ b) :
    W9 m c (Proc.devRef .tc b) = W8 m c (Proc.devRef .tc b) :=
  withArrays_of_ne spec0 c _ _ b hb
theorem W10_arr (c : Dev nD) (w : Fin cfg1.W) :
    W10 m c (Proc.devRef .tc (arrRef spec1 w)) = (dat1 (V9 m) c).arrAt w cfg1.N :=
  withArrays_arr spec1 launch1.win.arr_inj c _ _ w
theorem W10_of_ne (c : Dev nD) (b : Ref sig .tc) (hb : ∀ w, arrRef spec1 w ≠ b) :
    W10 m c (Proc.devRef .tc b) = W9 m c (Proc.devRef .tc b) :=
  withArrays_of_ne spec1 c _ _ b hb
theorem W11_arr (c : Dev nD) (w : Fin cfg2.W) :
    W11 m c (Proc.devRef .tc (arrRef spec2 w)) = (dat2 (V10 m) c).arrAt w cfg2.N :=
  withArrays_arr spec2 launch2.win.arr_inj c _ _ w
theorem W11_of_ne (c : Dev nD) (b : Ref sig .tc) (hb : ∀ w, arrRef spec2 w ≠ b) :
    W11 m c (Proc.devRef .tc b) = W10 m c (Proc.devRef .tc b) :=
  withArrays_of_ne spec2 c _ _ b hb

def pdats : (p : Fin 3) → (c : Dev nD) → Dat τ (Elt F) Unit ℕ (UR sig nD τ) ℕ (cfgs p) c
  | ⟨0, _⟩ => dat0 (V8 m)
  | ⟨1, _⟩ => dat1 (V9 m)
  | ⟨2, _⟩ => dat2 (V10 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Between two segments every unscoped reference holds `W`. -/
abbrev T (W : Dev nD → Valuation τ sig (Elt F)) (c : Dev nD) : sProp 𝕄 :=
  iprop(StableHlo.held (c : Thread nD τ) (ucRefs τ sig) (W c) ∗ R c)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

/-- Region `p` entered at contents `W`: its arrays are taken out of the held contents and put back as written; nothing is owed. -/
def reg (p : Fin 3) (lf : LaunchFacts (nD := nD) (τ := τ) cfgs p) (W : Dev nD → Valuation τ sig (Elt F))
    (hb : ∀ c, BodyObligation (pdats m p c) defs₀ 𝒱₀ () Set.univ)
    (hA : ∀ c w, (pdats m p c).A w = rd W c (arrRef (cfgs p).spec w))
    (hq : ∀ c w, (pdats m p c).q w = fullShare) (h0 : ∀ c t, (pdats m p c).owed t = 0) (hr : ∀ c, (pdats m p c).recorded 0 = Set.univ)
    (hi : ∀ c, ΦA (cfgs p).spec c ⊢ (pdats m p c).Φ 0)
    (hl : ∀ c, (pdats m p c).Φ (Fin.last _) ⊢ ΦA (cfgs p).spec c) :
    RegionSeg pcfgs adm (pdats m) () defs₀ 𝒱₀ L lv p where
  win := lf.win.to₀
  block_pos := lf.block_pos
  stage_whole := lf.stage_whole
  K := PEmpty
  osem k := k.elim
  ho := OwnSemFacts.none _
  hbody c := (hb c).loose
  hwaits := hwaits_of_owed_zero _ _ _ _ L lv p h0
  pre := T W
  post := T fun c => withArrays (cfgs p).spec c (W c) fun w => (pdats m p c).arrAt w (cfgs p).N
  X c := iprop(∃ r, prngReg c r)
  Y c := iprop(∃ r, prngReg c r)
  Z c := unscopedRest (cfgs p).spec c (rd W c)
  hentry c := by
    have hs := arrays_of_unscopedBufs pcfgs adm (pdats m) lf.win lf.arr_whole c
      ((pdats m p c).share_full (hq c)) (rd W c) (hA c)
    rw [unscopedBufs_held] at hs
    unfold Dat.owesAt owesWithin Dat.bound prefHeld
    rw [h0 c, hr c, show (Finset.univ : Finset (Fin 0)) = ∅ from rfl, BI.bigSep_empty]
    iintro ⟨⟨Hub, Hp, %W, HO⟩, -, -⟩
    ihave ⟨Ha, Hrest⟩ := hs $$ Hub
    imodintro
    iframe
    isplitr; · iempintro
    iexists W; iframe
    ipureintro; exact fun _ _ => .inl trivial
  hin c := (sep_mono_right sep_elim_right).trans (sep_comm.1.trans (hi c))
  hout c := by rw [ownSems0_none]; exact (hl c).trans (sep_comm.1.trans (sep_mono_right BIClass.emp_sep.2))
  hexit c := by
    have hj := unscopedBufs_of_arrays pcfgs adm lf.win lf.arr_whole c (pdats m) ((pdats m p c).share_full (hq c)) (rd W c)
      (rd (fun c => withArrays (cfgs p).spec c (W c) fun w => (pdats m p c).arrAt w (cfgs p).N) c) _
      (fun w => (withArrays_arr _ lf.win.arr_inj c _ ((pdats m p c).arrAt · (cfgs p).N) w).symm)
      (fun b hb => withArrays_of_ne _ c _ _ b fun w e => hb (Finset.mem_image.mpr ⟨w, Finset.mem_univ _, e⟩))
    rw [unscopedBufs_held] at hj
    unfold Dat.owesAt owesWithin T R
    rw [h0 c]
    iintro ⟨Ha, ⟨%W, -, HO⟩, HY, Hrest⟩
    imodintro
    isplitl [Ha Hrest]
    · iapply hj; iframe
    iframe; iexists W; iexact HO

abbrev reg0 := reg m 0 launch0 (W8 m) (body_obligation0 (V8 m)) (fun _ _ => rfl) (fun _ _ => rfl) (fun _ _ => rfl) (fun _ => rfl)
  (fun c => .of_eq (Phi_eq0 (V8 m) c 0).symm) fun c => .of_eq (Phi_eq0 (V8 m) c _)
abbrev reg1 := reg m 1 launch1 (W9 m) (body_obligation1 (V9 m)) (fun _ _ => rfl) (fun _ _ => rfl) (fun _ _ => rfl) (fun _ => rfl)
  (hin1 (V9 m)) (hout1 (V9 m))
abbrev reg2 := reg m 2 launch2 (W10 m) (body_obligation2 (V10 m)) (fun _ _ => rfl) (fun _ _ => rfl) (fun _ _ => rfl) (fun _ => rfl)
  (hin2 (V10 m)) (hout2 (V10 m))

abbrev E : Fin 4 → Dev nD → sProp 𝕄 := fun _ => R

/-- The program's twelve segments in order. -/
abbrev segs : List (Seg pcfgs adm (pdats m) () defs₀ 𝒱₀ L lv) :=
  [.host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .region (reg0 m), .region (reg1 m), .region (reg2 m),
    .host (.ofOps _ _ _ _ _ (ucRefs τ sig) hostOps3
      (fun op h => sub_ucRefs op (List.forall_iff_forall_mem.mp hostOps3_sub op h))
      (List.forall_iff_forall_mem.mp hostOps3_fresh) (W11 m) R)]

/-- THE RUN: every weakly fair execution terminates, and the final memory holds `W12` at every unscoped reference. -/
theorem run_all : θ_run defs (onTc (τ := τ) (main (F := F))) ⟨m, fun _ => 0, ρ⟩ (fun r => ∀ c : Dev nD,
      ∀ b ∈ ucRefs τ sig, r.2.mem (((c : Thread nD τ)).1, b) = W12 m c b) :=
  θ_run_regions_kit pcfgs adm (pdats m) () cellOf_inj emb₁ defs₀ 𝒱₀ L lv m ρ main (segs m)
    (fun c Q => by rw [main_chain c, Seg.run_eq_chain]; exact .rfl)
    (by simp only [segs, Seg.pipes_host, Seg.pipes_region, Seg.pipes_nil]; decide)
    (O₀ := 0) (hL := fun _ _ => rfl) (G := fun _ => BI.emp)
    (u₀ := initOf (cells cfgs cellOf_inj) (launchToks cfgs cellOf_inj))
    (hu₀ := by rw [BI.bigSep_emp_const]; exact sep_emp.2.trans fupd_intro)
    (T₀ := T (W0 m))
    (Tₙ := fun c => StableHlo.held (c : Thread nD τ) (ucRefs τ sig) (W12 m c))
    (hch := by iterate 12 refine ⟨fun _ => .rfl, ?_⟩
               exact fun _ => sep_mono_right sep_elim_right)
    (hinit := by
      refine initEach L lv fun c => ?_
      erw [unscopedBufs_held c (W0 m c)]
      unfold T R
      iintro ⟨⟨Hh, -, HO, -, Hp, -⟩, -⟩
      imodintro
      iframe
      isplitl [Hp] <;> iexists _ <;> iassumption)
    (hfin := fun c s' => (pointsTo_read_all (ucRefs τ sig) (fun b => ((c : Thread nD τ).1, b)) (W12 m c) s').trans fupd_intro)
    (hQ := fun _ h => h)

/-- The references the host stretches before the regions write. -/
abbrev hostW : List (Ref sig .tc) :=
  hostOps0_W ++ hostOps0_1_W ++ hostOps0_2_W ++ hostOps0_3_W ++ hostOps0_4_W ++ hostOps0_5_W ++ hostOps0_6_W ++ hostOps0_7_W

/-- A reference none of them writes enters the first region with its initial contents. -/
theorem W8_of (c : Dev nD) (r : Ref sig .tc) (h : r ∉ hostW) : W8 m c r = m ((c : Thread nD τ).loc r) := by
  simp only [hostW, List.mem_append, not_or] at h
  obtain ⟨⟨⟨⟨⟨⟨⟨h0, h1⟩, h2⟩, h3⟩, h4⟩, h5⟩, h6⟩, h7⟩ := h
  exact (V8_of m c r h7).trans <| (V7_of m c r h6).trans <| (V6_of m c r h5).trans <| (V5_of m c r h4).trans <|
    (V4_of m c r h3).trans <| (V3_of m c r h2).trans <| (V2_of m c r h1).trans (V1_of m c r h0)
theorem W8_arg4 (c : Dev nD) : W8 m c main_arg4 = m ((c : Thread nD τ).loc main_arg4) := W8_of m c _ (by decide)
theorem W8_arg5 (c : Dev nD) : W8 m c main_arg5 = m ((c : Thread nD τ).loc main_arg5) := W8_of m c _ (by decide)

/-- A reference that no host stretch writes and that is no region's array ends with its initial contents. -/
theorem W12_of (c : Dev nD) (r : Ref sig .tc) (h : r ∉ hostOps3_W ∧ (∀ w, arrRef spec2 w ≠ r) ∧ (∀ w, arrRef spec1 w ≠ r)
      ∧ (∀ w, arrRef spec0 w ≠ r) ∧ r ∉ hostW) :
    W12 m c r = m ((c : Thread nD τ).loc r) :=
  (StableHlo.after_of_writes_sub hostOps3 _ hostOps3_writes h.1).trans <| (W11_of_ne m c r h.2.1).trans <|
    (W10_of_ne m c r h.2.2.1).trans <| (W9_of_ne m c r h.2.2.2.1).trans (W8_of m c r h.2.2.2.2)
theorem W12_arg0 (c : Dev nD) : W12 m c main_arg0 = m ((c : Thread nD τ).loc main_arg0) := W12_of m c _ (by decide)
theorem W12_arg1 (c : Dev nD) : W12 m c main_arg1 = m ((c : Thread nD τ).loc main_arg1) := W12_of m c _ (by decide)
theorem W12_arg2 (c : Dev nD) : W12 m c main_arg2 = m ((c : Thread nD τ).loc main_arg2) := W12_of m c _ (by decide)
theorem W12_arg3 (c : Dev nD) : W12 m c main_arg3 = m ((c : Thread nD τ).loc main_arg3) := W12_of m c _ (by decide)
/-- The first region only reads it. -/
theorem W12_arg4 (c : Dev nD) : W12 m c main_arg4 = m ((c : Thread nD τ).loc main_arg4) :=
  (StableHlo.after_of_writes_sub hostOps3 _ hostOps3_writes (r := main_arg4) (by decide)).trans <| (W11_of_ne m c _ (by decide)).trans <|
    (W10_of_ne m c _ (by decide)).trans <| (W9_arr m c 1).trans <| ((dat0 (V8 m) c).arrAt_in 1 rfl _).trans <|
    (A_eq0 (V8 m) c 1).trans (W8_arg4 m c)
/-- The last region only reads it. -/
theorem W12_arg5 (c : Dev nD) : W12 m c main_arg5 = m ((c : Thread nD τ).loc main_arg5) :=
  (StableHlo.after_of_writes_sub hostOps3 _ hostOps3_writes (r := main_arg5) (by decide)).trans <| (W11_arr m c 2).trans <|
    ((dat2 (V10 m) c).arrAt_in 2 rfl _).trans <| (A_eq2 (V10 m) c 2).trans <| (W10_of_ne m c _ (by decide)).trans <|
    (W9_of_ne m c _ (by decide)).trans (W8_arg5 m c)

/-- THE FRAME: every weakly fair execution terminates and the six arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc _ (by decide))).trans (W12_arg0 m c), (h c _ (mem_uc _ (by decide))).trans (W12_arg1 m c),
      (h c _ (mem_uc _ (by decide))).trans (W12_arg2 m c), (h c _ (mem_uc _ (by decide))).trans (W12_arg3 m c),
      (h c _ (mem_uc _ (by decide))).trans (W12_arg4 m c), (h c _ (mem_uc _ (by decide))).trans (W12_arg5 m c)⟩) (run_all m ρ)

end Cert.Kernel.Conv

end
-- ==== Proof.KI.R0.lean ====
import proofs.«405544_j71923522339430_1_alg».proof.Proof.Gen.KernelIdeal.Launch
import proofs.«405544_j71923522339430_1_alg».proof.Proof.Gen.KernelIdeal.Skeleton
import proofs.«405544_j71923522339430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S512x128 := Rect.unit (s := S512x128) ![0, 0] S512x128.size inb_S512x128_S512x128_0_0
abbrev r0_w : Rect S128x64 := Rect.unit (s := S128x64) ![0, 0] S128x64.size inb_S128x64_S128x64_0_0
abbrev r0_o : Rect S512x64 := Rect.unit (s := S512x64) ![0, 0] S512x64.size inb_S512x64_S512x64_0_0

def out0_2 (x0 : Vec F S512x128 .f32) (x1 : Vec F S128x64 .f32) : Vec F S512x64 .f32 :=
  View.canon [⟨r0_o, k0_pay1 (View.ld x0 r0_x) (View.ld x1 r0_w)⟩]

theorem cover0_2 (p0 : Vec F S512x64 .f32) (y : S512x64.Idx) :
    ∃ pc ∈ ([⟨r0_o, p0⟩] : List (View.Piece (Elt F) S512x64 .f32)), y ∈ pc.1.set :=
  View.cover_of_tiled [⟨r0_o, p0⟩] S512x64.size (by rfl) y

set_option maxHeartbeats 1000000 in

theorem sound_kernel0 (c : Dev nD) (E : Set ℕ) (i : grid0.Coords) (arg1 : Memref sig .tc .vmem S512x128 .f32) (harg1 : arg1.IsWhole)
    (arg2 : Memref sig .tc .vmem S128x64 .f32) (harg2 : arg2.IsWhole) (arg3 : Memref sig .tc .vmem S512x64 .f32) (harg3 : arg3.IsWhole)
    (x0 : Vec F S512x128 .f32) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  iframe H0 H1
  isplitl [H2]; · iexists _; iexact H2
  iintro ⟨H0, H1, H2⟩
  iframe HΦ Ho H0 H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Conv

end
-- ==== Proof.KI.R1Runs.lean ====
import proofs.«405544_j71923522339430_1_alg».proof.Proof.Gen.KernelIdeal.Launch
import proofs.«405544_j71923522339430_1_alg».proof.Proof.Gen.KernelIdeal.Skeleton
import proofs.«405544_j71923522339430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 98 = 0 :=
  (by decide +kernel : ∀ t : Fin grid1.N, cond1_0 (grid1.coords t) ↔ t.val % 98 = 0)

abbrev cond1_1 (i : grid1.Coords) : Prop := k1_cond2 i = 1#1

theorem hcond1_1 : ∀ t : Fin cfg1.N, cond1_1 (grid1.coords t) ↔ t.val % 98 = 97 :=
  (by decide +kernel : ∀ t : Fin grid1.N, cond1_1 (grid1.coords t) ↔ t.val % 98 = 97)

theorem idleAt1_3 (i : grid1.Coords) (h : ¬cond1_1 i) : cfg1.idle 3 i = true := by
  show (!(k1_cond2 i == 1#1)) = true
  rw [Bool.not_eq_true', beq_eq_false_iff_ne]; exact h

theorem noFlush1_3 (t : Fin cfg1.N) (h : ¬cond1_1 (grid1.coords t)) : (cfg1.win 3).flush t = false := by
  rw [← Bool.not_eq_true]; intro hf
  exact h ((hcond1_1 t).mpr ((flush1_3 t).mp hf))

theorem liveAt1_3 (i : grid1.Coords) (h : cond1_1 i) : cfg1.idle 3 i = false := by
  show (!(k1_cond2 i == 1#1)) = false
  rw [Bool.not_eq_false', beq_iff_eq]; exact h

abbrev ms1_0 (t : Fin cfg1.N) : Memref sig .tc .vmem S8192 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x64 .f32 := win1_3.stage (cfg1.slots t 3)
abbrev hs1_3 (t : Fin cfg1.N) : (ms1_3 t).IsWhole := hstage1_3 ((cfg1.slots t 3).cast nbuf1_3)

abbrev scM1_0 : Memref sig .tc .vmem S8192x64 .f32 := Memref.whole cc1_scratch0

abbrev VS1_0 : View sig .tc .vmem S8192x64 .f32 := scM1_0.view

def rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) : (Pipeline.ΦA spec1 c : sProp 𝕄)
    = iprop(((∃ d, owns (c : Thread nD τ) scM1_0 fullShare d) ∗ rest1 c) ∗ (∃ r, prngReg c r)) := by
  unfold Pipeline.ΦA rest1
  rw [Pipeline.scopedRest_split_of_list spec1 c [cc1_scratch0] (by decide) (by decide)]
  simp only [scM1_0, owns_whole]; try rfl

theorem PhiA1_split (c : Dev nD) :
    (Pipeline.ΦA spec1 c : sProp 𝕄) ⊢ iprop((∃ d, owns (c : Thread nD τ) scM1_0 fullShare d) ∗ rest1 c ∗ (∃ r, prngReg c r)) := by
  rw [PhiA1_eq]; iintro ⟨⟨HS, HR⟩, Hg⟩
  iframe HS HR; iexact Hg

theorem PhiA1_join (c : Dev nD) :
    iprop((∃ d, owns (c : Thread nD τ) scM1_0 fullShare d) ∗ rest1 c ∗ (∃ r, prngReg c r)) ⊢ (Pipeline.ΦA spec1 c : sProp 𝕄) := by
  rw [PhiA1_eq]; iintro ⟨HS, HR, Hg⟩
  iframe HS HR; iexact Hg

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Regions

end Cert.KernelIdeal.Conv

end
-- ==== Proof.KI.R1RunA.lean ====
import proofs.«405544_j71923522339430_1_alg».proof.Proof.KI.R1Runs

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun1_A (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : cond1_0 i) (hc1 : ¬cond1_1 i)
    (x0 : Vec F S8192 .i32) (x1 : Vec F S8192 .f32) (x2 : Vec F S512x64 .f32) :
    Σ' (L3 : List (View.Piece (Elt F) S8192x64 .f32)), { LS0 : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Conv

end
-- ==== Proof.KI.R1RunB.lean ====
import proofs.«405544_j71923522339430_1_alg».proof.Proof.KI.R1RunA

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun1_B (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : ¬cond1_0 i) (hc1 : ¬cond1_1 i)
    (x0 : Vec F S8192 .i32) (x1 : Vec F S8192 .f32) (x2 : Vec F S512x64 .f32) (xs0 : Vec F S8192x64 .f32) :
    Σ' (L3 : List (View.Piece (Elt F) S8192x64 .f32)), { LS0 : List (View.Piece (Elt F) S8192x64 .f32) //
      ∀ (xi3 : Vec F S8192x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Conv

end
-- ==== Proof.KI.R1RunC.lean ====
import proofs.«405544_j71923522339430_1_alg».proof.Proof.KI.R1RunB

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun1_C (c : Dev nD) (i : grid1.Coords) (arg2 : Memref sig .tc .vmem S8192 .i32) (harg2 : arg2.IsWhole) (arg3 : Memref sig .tc .vmem S8192 .f32) (harg3 : arg3.IsWhole) (arg4 : Memref sig .tc .vmem S512x64 .f32) (harg4 : arg4.IsWhole) (arg5 : Memref sig .tc .vmem S8192x64 .f32) (harg5 : arg5.IsWhole) (arg6 : Memref sig .tc .vmem S8192x64 .f32) (harg6 : arg6.IsWhole) (hc0 : ¬cond1_0 i) (hc1 : cond1_1 i)
    (x0 : Vec F S8192 .i32) (x1 : Vec F S8192 .f32) (x2 : Vec F S512x64 .f32) (xs0 : Vec F S8192x64 .f32) :
    Σ' (L3 : List (View.Piece (Elt F) S8192x64 .f32)), { LS0 : List (View.Piece (Elt F) S8192x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Conv

end
-- ==== Proof.KI.R1.lean ====
import proofs.«405544_j71923522339430_1_alg».proof.Proof.KI.R1RunC

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

private theorem hz1_1 : (![0] : Fin 1 → ℕ) = fun _ => 0 := by funext a; fin_cases a; rfl
private theorem hz1_2 : (![0, 0] : Fin 2 → ℕ) = fun _ => 0 := by funext a; fin_cases a <;> rfl

section Pieces
variable {c : Dev nD} {i : grid1.Coords} {arg2 : Memref sig .tc .vmem S8192 .i32} {harg2 : arg2.IsWhole} {arg3 : Memref sig .tc .vmem S8192 .f32} {harg3 : arg3.IsWhole} {arg4 : Memref sig .tc .vmem S512x64 .f32} {harg4 : arg4.IsWhole} {arg5 : Memref sig .tc .vmem S8192x64 .f32} {harg5 : arg5.IsWhole} {arg6 : Memref sig .tc .vmem S8192x64 .f32} {harg6 : arg6.IsWhole}
  {x0 : Vec F S8192 .i32} {x1 : Vec F S8192 .f32} {x2 : Vec F S512x64 .f32} {xs0 : Vec F S8192x64 .f32}
  {κ : Kind} {sp : Space} {v : View sig κ sp S8192x64 .f32} (f : v.ty.Contents (Elt F))

/-- At the first point of a run the accumulator is left at the zero block updated by the point's product, -/
theorem spiece1_A (hc0 : cond1_0 i) (hc1 : ¬cond1_1 i) :
    v.read (Elt F) (v.writes (Elt F) f (kernelRun1_A c i arg2 harg2 arg3 harg3 arg4 harg4 arg5 harg5 arg6 harg6 hc0 hc1 x0 x1 x2).2.1) = k1_pay2 i x0 x2 (k1_pay1 (F := F)) := by
  refine (View.read_writes_eq_canon _ _ _ (View.cover_of_tiledL _ S8192x64.size ?_)).trans ?_
  · sl_kernel_rfl
  unfold kernelRun1_A; dsimp only; sl_unfold_words
  rw [View.canon_cons_unit_zero (S := S8192x64) hz1_2, View.readCov_unit_zero (S := S8192x64) _ hz1_2]
  simp only [View.readAt_eq_ld, harg2.read_unread, harg4.read_unread, View.ld_unit_zero (S := S8192) hz1_1, View.ld_unit_zero (S := S512x64) hz1_2, View.ld_unit_zero (S := S8192x64) hz1_2]

/-- at a middle point at the update of what it held, -/
theorem spiece1_B (hc0 : ¬cond1_0 i) (hc1 : ¬cond1_1 i) :
    v.read (Elt F) (v.writes (Elt F) f (kernelRun1_B c i arg2 harg2 arg3 harg3 arg4 harg4 arg5 harg5 arg6 harg6 hc0 hc1 x0 x1 x2 xs0).2.1) = k1_pay2 i x0 x2 xs0 := by
  refine (View.read_writes_eq_canon _ _ _ (View.cover_of_tiledL _ S8192x64.size ?_)).trans ?_
  · sl_kernel_rfl
  unfold kernelRun1_B; dsimp only; sl_unfold_words
  rw [View.canon_unit_zero (S := S8192x64) hz1_2]
  simp only [View.readAt_eq_ld, harg2.read_unread, harg4.read_unread, harg6.read_unread, View.ld_unit_zero (S := S8192) hz1_1, View.ld_unit_zero (S := S512x64) hz1_2, View.ld_unit_zero (S := S8192x64) hz1_2]

/-- likewise at the last point of a run, -/
theorem spiece1_C (hc0 : ¬cond1_0 i) (hc1 : cond1_1 i) :
    v.read (Elt F) (v.writes (Elt F) f (kernelRun1_C c i arg2 harg2 arg3 harg3 arg4 harg4 arg5 harg5 arg6 harg6 hc0 hc1 x0 x1 x2 xs0).2.1) = k1_pay2 i x0 x2 xs0 := by
  refine (View.read_writes_eq_canon _ _ _ (View.cover_of_tiledL _ S8192x64.size ?_)).trans ?_
  · sl_kernel_rfl
  unfold kernelRun1_C; dsimp only; sl_unfold_words
  rw [View.canon_unit_zero (S := S8192x64) hz1_2]
  simp only [View.readAt_eq_ld, harg2.read_unread, harg4.read_unread, harg6.read_unread, View.ld_unit_zero (S := S8192) hz1_1, View.ld_unit_zero (S := S512x64) hz1_2, View.ld_unit_zero (S := S8192x64) hz1_2]

/-- where the output block is that update scaled row by row by the edge values. -/
theorem opiece1_C (hc0 : ¬cond1_0 i) (hc1 : cond1_1 i) :
    v.read (Elt F) (v.writes (Elt F) f (kernelRun1_C c i arg2 harg2 arg3 harg3 arg4 harg4 arg5 harg5 arg6 harg6 hc0 hc1 x0 x1 x2 xs0).1) = k1_pay3 (k1_pay2 i x0 x2 xs0) x1 := by
  refine (View.read_writes_eq_canon _ _ _ (View.cover_of_tiledL _ S8192x64.size ?_)).trans ?_
  · sl_kernel_rfl
  unfold kernelRun1_C; dsimp only; sl_unfold_words
  rw [View.canon_unit_zero (S := S8192x64) hz1_2, View.readCov_unit_zero (S := S8192x64) _ hz1_2]
  simp only [View.readAt_eq_ld, harg2.read_unread, harg3.read_unread, harg4.read_unread, harg6.read_unread, View.ld_unit_zero (S := S8192) hz1_1, View.ld_unit_zero (S := S512x64) hz1_2, View.ld_unit_zero (S := S8192x64) hz1_2]

end Pieces

section Regions
variable (V : (c : Dev nD) → (b : Ref sig .tc) → Buf (Elt F) (c.tc.loc b))

/-- The accumulator after point `n`: the point's update of the zero block where a run begins, else of the accumulator before. -/
def acc1 (c : Dev nD) (n : ℕ) (hn : n < cfg1.N) : Vec F S8192x64 .f32 :=
  k1_pay2 (grid1.coords ⟨n, hn⟩) (iblk1 V c 0 ⟨n, hn⟩) (iblk1 V c 2 ⟨n, hn⟩)
    (if h : n % 98 = 0 then k1_pay1 else acc1 c (n - 1) (by omega))

theorem acc1_first (c : Dev nD) (t : Fin cfg1.N) (h : t.val % 98 = 0) :
    acc1 V c t.val t.isLt = k1_pay2 (grid1.coords t) (iblk1 V c 0 t) (iblk1 V c 2 t) (k1_pay1 (F := F)) := by
  rw [acc1, dif_pos h]

theorem acc1_next (c : Dev nD) (t : Fin cfg1.N) (h : ¬ t.val % 98 = 0) :
    acc1 V c t.val t.isLt = k1_pay2 (grid1.coords t) (iblk1 V c 0 t) (iblk1 V c 2 t)
      (acc1 V c (t.val - 1) (Nat.lt_of_le_of_lt (Nat.sub_le _ _) t.isLt)) := by
  rw [acc1, dif_neg h]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 1 t)
  Φ t := iprop((∃ d, ⌜∀ h : ¬t.val % 98 = 0, d = acc1 V c (t.val - 1) (by omega)⌝ ∗ owns c.tc scM1_0 fullShare d) ∗ rest1 c ∗ (∃ r, prngReg c r))
  q _ := fullShare
  owed _ := 0

theorem after1_3_last (c : Dev nD) (t : Fin cfg1.N) (h : t.val % 98 = 97) :
    (dat1 V c).after 3 t = k1_pay3 (acc1 V c t.val t.isLt) (iblk1 V c 1 t) := rfl

theorem hin1 (c : Dev nD) : Pipeline.ΦA spec1 c ⊢ (dat1 V c).Φ 0 :=
  (PhiA1_split c).trans (by
    dsimp only [dat1]
    iintro ⟨⟨%d, HS⟩, HR⟩
    iframe HR
    iexists d; iframe HS
    ipureintro; exact fun h => (h rfl).elim)

theorem hout1 (c : Dev nD) : (dat1 V c).Φ (Fin.last cfg1.N) ⊢ Pipeline.ΦA spec1 c :=
  .trans (by
    dsimp only [dat1]
    iintro ⟨⟨%d, -, HS⟩, HR⟩
    iframe HR
    iexists d; iexact HS) (PhiA1_join c)

theorem Phi_succ1 (c : Dev nD) (t : Fin cfg1.N) {L : List (View.Piece (Elt F) S8192x64 .f32)}
    (hL : ∀ f, VS1_0.read (Elt F) (VS1_0.writes (Elt F) f L) = acc1 V c t.val t.isLt) (P : sProp 𝕄) :
    iprop((∃ f, VS1_0.loc c.tc ↦[VS1_0.set]{fullShare} VS1_0.writes (Elt F) f L) ∗ (rest1 c ∗ ∃ r, prngReg c r) ∗ P) ⊢ iprop((dat1 V c).Φ t.succ ∗ P) := by
  dsimp only [dat1]; unfold owns
  iintro ⟨⟨%f, H⟩, HR, HP⟩
  iframe HR HP
  iexists acc1 V c t.val t.isLt; isplitr; · ipureintro; exact fun _ => rfl
  iexists _; isplitr; · ipureintro; exact hL f
  iexact H

/-- Each point turns the accumulator before it into the one after it and, where a run ends, leaves the output block at it scaled. -/
theorem sound_body1 (c : Dev nD) (t : Fin cfg1.N) :
    iprop(((∃ d, ⌜∀ h : ¬t.val % 98 = 0, d = acc1 V c (t.val - 1) (by omega)⌝ ∗ owns c.tc scM1_0 fullShare d) ∗ rest1 c ∗ (∃ r, prngReg c r))
      ∗ (dat1 V c).owesAt () t.castSucc
      ∗ (∃ d, owns c.tc (ms1_0 t) fullShare ((dat1 V c).before 0 t d))
      ∗ (∃ d, owns c.tc (ms1_1 t) fullShare ((dat1 V c).before 1 t d))
      ∗ (∃ d, owns c.tc (ms1_2 t) fullShare ((dat1 V c).before 2 t d))
      ∗ (∃ d, owns c.tc (ms1_3 t) fullShare ((dat1 V c).before 3 t d)))
    ⊢ wp frame (wpE (defs₀ (F := F)) Variants.none c none) Set.univ (bodyAt1 t) fun _ =>
      iprop((dat1 V c).Φ t.succ ∗ (dat1 V c).owesAt () t.castSucc
        ∗ owns c.tc (ms1_0 t) fullShare (iblk1 V c 0 t)
        ∗ owns c.tc (ms1_1 t) fullShare (iblk1 V c 1 t)
        ∗ owns c.tc (ms1_2 t) fullShare (iblk1 V c 2 t)
        ∗ (dat1 V c).leavesExact 3 t) := by
  simp only [before1_0_of V (dat1 V c) rfl fun _ => rfl, before1_1_of V (dat1 V c) rfl fun _ => rfl, before1_2_of V (dat1 V c) rfl fun _ => rfl]
  iintro ⟨⟨⟨%d, %hd, HS⟩, HR⟩, Ho, ⟨%d0, H0⟩, ⟨%d1, H1⟩, ⟨%d2, H2⟩, ⟨%d3, H3⟩⟩
  by_cases h1 : cond1_1 (grid1.coords t)
  · have h0 : ¬t.val % 98 = 0 := by have := (hcond1_1 t).mp h1; omega
    obtain rfl := hd h0
    unfold Dat.leavesExact; rw [liveAt1_3 _ h1]; dsimp only
    iapply (kernelRun1_C c (grid1.coords t) _ _ _ _ _ _ _ _ _ _ (mt (hcond1_0 t).mp h0) h1 (iblk1 V c 0 t) (iblk1 V c 1 t) (iblk1 V c 2 t) _).2.2 Set.univ _
    iframe H0 H1 H2 HS
    isplitl [H3]; · iexists _; iexact H3
    iintro ⟨H0, H1, H2, ⟨%f3, H3⟩, HS⟩
    iapply Phi_succ1 V c t fun f => (spiece1_C f _ h1).trans (acc1_next V c t h0).symm
    iframe HS HR Ho H0 H1 H2
    unfold owns; iexists _; iframe H3
    ipureintro
    exact (opiece1_C f3 _ h1).trans (congrArg (k1_pay3 · _) (acc1_next V c t h0).symm)
  rw [Dat.leavesExact_idle (dat1 V c) 3 t (idleAt1_3 _ h1) (noFlush1_3 t h1)]
  by_cases h0 : t.val % 98 = 0
  · iapply (kernelRun1_A c (grid1.coords t) _ _ _ _ _ _ _ _ _ _ ((hcond1_0 t).mpr h0) h1 (iblk1 V c 0 t) (iblk1 V c 1 t) (iblk1 V c 2 t)).2.2 _ Set.univ _
    iframe H0 H1 H2 H3
    isplitl [HS]; · iexists _; iexact HS
    iintro ⟨H0, H1, H2, H3, HS⟩
    iapply Phi_succ1 V c t fun f => (spiece1_A f _ h1).trans (acc1_first V c t h0).symm
    iframe HS HR Ho H0 H1 H2
    iexists _; iexact H3
  · obtain rfl := hd h0
    iapply (kernelRun1_B c (grid1.coords t) _ _ _ _ _ _ _ _ _ _ (mt (hcond1_0 t).mp h0) h1 (iblk1 V c 0 t) (iblk1 V c 1 t) (iblk1 V c 2 t) _).2.2 _ Set.univ _
    iframe H0 H1 H2 H3 HS
    iintro ⟨H0, H1, H2, H3, HS⟩
    iapply Phi_succ1 V c t fun f => (spiece1_B f _ h1).trans (acc1_next V c t h0).symm
    iframe HS HR Ho H0 H1 H2
    iexists _; iexact H3

theorem body_obligation1 (c : Dev nD) : BodyObligation (dat1 (F := F) V c) (defs₀ (F := F)) Variants.none () Set.univ := fun t => by
  rw [bigSep_W1, bigSep_W1]
  exact sound_body1 V c t

end Regions

end Cert.KernelIdeal.Conv

end
-- ==== Proof.KI.R2Runs.lean ====
import proofs.«405544_j71923522339430_1_alg».proof.Proof.Gen.KernelIdeal.Launch
import proofs.«405544_j71923522339430_1_alg».proof.Proof.Gen.KernelIdeal.Skeleton
import proofs.«405544_j71923522339430_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 98 = 0 :=
  (by decide +kernel : ∀ t : Fin grid2.N, cond2_0 (grid2.coords t) ↔ t.val % 98 = 0)

abbrev cond2_1 (i : grid2.Coords) : Prop := k2_cond2 i = 1#1

theorem hcond2_1 : ∀ t : Fin cfg2.N, cond2_1 (grid2.coords t) ↔ t.val % 98 = 97 :=
  (by decide +kernel : ∀ t : Fin grid2.N, cond2_1 (grid2.coords t) ↔ t.val % 98 = 97)

theorem idleAt2_3 (t : Fin cfg2.N) (h : ¬cond2_1 (grid2.coords t)) : cfg2.idle 3 (grid2.coords t) = true := by
  show (!(k2_cond2 (grid2.coords t) == 1#1)) = true
  rw [Bool.not_eq_true', beq_eq_false_iff_ne]; exact h

theorem liveAt2_3 (t : Fin cfg2.N) (h : cond2_1 (grid2.coords t)) : cfg2.idle 3 (grid2.coords t) = false := by
  show (!(k2_cond2 (grid2.coords t) == 1#1)) = false
  rw [Bool.not_eq_false', beq_iff_eq]; exact h

theorem noFlush2_3 (t : Fin cfg2.N) (h : ¬cond2_1 (grid2.coords t)) : (cfg2.win 3).flush t = false := by
  cases hf : (cfg2.win 3).flush t with
  | false => rfl
  | true => exact absurd ((hcond2_1 t).mpr ((flush2_3 t).mp hf)) h

abbrev ms2_0 (t : Fin cfg2.N) : Memref sig .tc .vmem S8192 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)

abbrev scM2_0 : Memref sig .tc .vmem S512x64 .f32 := Memref.whole cc2_scratch0

abbrev Rest2 (c : Dev nD) : sProp 𝕄 :=
  Pipeline.scopedRestBut (Ix := Unit) (Name := ℕ) (U := UR sig nD τ) (Lvl := ℕ) (Val := Elt F) spec2 c [cc2_scratch0]

theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ Rest2 c) :=
  Pipeline.scopedRest_split_of_list spec2 c [cc2_scratch0] (by decide) (by decide)

theorem PhiA2_eq (c : Dev nD) :
    (Pipeline.ΦA spec2 c : sProp 𝕄)
      = iprop(iprop((∃ d, owns (c : Thread nD τ) scM2_0 fullShare d) ∗ Rest2 c) ∗ (∃ r, prngReg c r)) := by
  unfold Pipeline.ΦA; rw [scopedRest2_split]; simp only [scM2_0, owns_whole]; try rfl

section Entry
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Entry

end Cert.KernelIdeal.Conv

end
-- ==== Proof.KI.R2RunA.lean ====
import proofs.«405544_j71923522339430_1_alg».proof.Proof.KI.R2Runs

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun2_A (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : cond2_0 i) (hc1 : ¬cond2_1 i)
    (x0 : Vec F S8192 .i32) (x1 : Vec F S8192x64 .f32) (x2 : Vec F S64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Conv

end
-- ==== Proof.KI.R2RunB.lean ====
import proofs.«405544_j71923522339430_1_alg».proof.Proof.KI.R2RunA

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun2_B (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬cond2_0 i) (hc1 : ¬cond2_1 i)
    (x0 : Vec F S8192 .i32) (x1 : Vec F S8192x64 .f32) (x2 : Vec F S64 .f32) (xs0 : Vec F S512x64 .f32) :
    Σ' (L3 : List (View.Piece (Elt F) S512x64 .f32)), { LS0 : List (View.Piece (Elt F) S512x64 .f32) //
      ∀ (xi3 : Vec F S512x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Conv

end
-- ==== Proof.KI.R2RunC.lean ====
import proofs.«405544_j71923522339430_1_alg».proof.Proof.KI.R2RunB

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in

noncomputable def kernelRun2_C (c : Dev nD) (i : grid2.Coords) (arg2 : Memref sig .tc .vmem S8192 .i32) (harg2 : arg2.IsWhole) (arg3 : Memref sig .tc .vmem S8192x64 .f32) (harg3 : arg3.IsWhole) (arg4 : Memref sig .tc .vmem S64 .f32) (harg4 : arg4.IsWhole) (arg5 : Memref sig .tc .vmem S512x64 .f32) (harg5 : arg5.IsWhole) (arg6 : Memref sig .tc .vmem S512x64 .f32) (harg6 : arg6.IsWhole) (hc0 : ¬cond2_0 i) (hc1 : cond2_1 i)
    (x0 : Vec F S8192 .i32) (x1 : Vec F S8192x64 .f32) (x2 : Vec F S64 .f32) (xs0 : Vec F S512x64 .f32) :
    Σ' (L3 : List (View.Piece (Elt F) S512x64 .f32)), { LS0 : List (View.Piece (Elt F) S512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Conv

end
-- ==== Proof.KI.R2.lean ====
import proofs.«405544_j71923522339430_1_alg».proof.Proof.KI.R2RunC
import Idealize.ShloMosaic.Lib.Pipeline.Value

noncomputable section

namespace Cert.KernelIdeal.Conv

open Idealize.ShloMosaic Idealize.ShloMosaic.TcCoe
open Idealize.SL Idealize.SL.RA Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

theorem hz1_2 : (![0] : Fin 1 → Nat) = fun _ => 0 := funext fun a => by fin_cases a <;> rfl
theorem hz2_2 : (![0, 0] : Fin 2 → Nat) = fun _ => 0 := funext fun a => by fin_cases a <;> rfl

section Pieces
variable {c : Dev nD} {i : grid2.Coords} {arg2 : Memref sig .tc .vmem S8192 .i32} {harg2 : arg2.IsWhole} {arg3 : Memref sig .tc .vmem S8192x64 .f32} {harg3 : arg3.IsWhole} {arg4 : Memref sig .tc .vmem S64 .f32} {harg4 : arg4.IsWhole} {arg5 : Memref sig .tc .vmem S512x64 .f32} {harg5 : arg5.IsWhole} {arg6 : Memref sig .tc .vmem S512x64 .f32} {harg6 : arg6.IsWhole}
  {x0 : Vec F S8192 .i32} {x1 : Vec F S8192x64 .f32} {x2 : Vec F S64 .f32} {xs0 : Vec F S512x64 .f32}

/-- At a run's first point the accumulator holds the update of the zero block. -/
theorem sread2_A {hc0 : cond2_0 i} {hc1 : ¬cond2_1 i} (f) :
    arg6.view.read (Elt F) (arg6.view.writes (Elt F) f (kernelRun2_A c i arg2 harg2 arg3 harg3 arg4 harg4 arg5 harg5 arg6 harg6 hc0 hc1 x0 x1 x2).2.1) = k2_pay2 i x0 x1 (k2_pay1 (F := F)) := by
  refine (View.read_writes_eq_canon _ _ _ (View.cover_of_tiledL _ S512x64.size (by sl_kernel_rfl))).trans ?_
  unfold kernelRun2_A
  dsimp only
  sl_unfold_words
  rw [View.canon_cons_unit_zero (S := S512x64) hz2_2, View.readCov_unit_zero (S := S512x64) _ hz2_2]
  simp only [View.readAt_eq_ld, harg2.read_unread, harg3.read_unread, View.ld_unit_zero (S := S8192) hz1_2, View.ld_unit_zero (S := S8192x64) hz2_2]

theorem sread2_B {hc0 : ¬cond2_0 i} {hc1 : ¬cond2_1 i} (f) :
    arg6.view.read (Elt F) (arg6.view.writes (Elt F) f (kernelRun2_B c i arg2 harg2 arg3 harg3 arg4 harg4 arg5 harg5 arg6 harg6 hc0 hc1 x0 x1 x2 xs0).2.1) = k2_pay2 i x0 x1 xs0 := by
  refine (View.read_writes_eq_canon _ _ _ (View.cover_of_tiledL _ S512x64.size (by sl_kernel_rfl))).trans ?_
  unfold kernelRun2_B
  dsimp only
  (try sl_unfold_words)
  rw [View.canon_unit_zero hz2_2]
  simp only [View.readAt_eq_ld, harg2.read_unread, harg3.read_unread, harg6.read_unread, View.ld_unit_zero (S := S8192) hz1_2, View.ld_unit_zero (S := S8192x64) hz2_2, View.ld_unit_zero (S := S512x64) hz2_2]

theorem sread2_C {hc0 : ¬cond2_0 i} {hc1 : cond2_1 i} (f) :
    arg6.view.read (Elt F) (arg6.view.writes (Elt F) f (kernelRun2_C c i arg2 harg2 arg3 harg3 arg4 harg4 arg5 harg5 arg6 harg6 hc0 hc1 x0 x1 x2 xs0).2.1) = k2_pay2 i x0 x1 xs0 := by
  refine (View.read_writes_eq_canon _ _ _ (View.cover_of_tiledL _ S512x64.size (by sl_kernel_rfl))).trans ?_
  unfold kernelRun2_C
  dsimp only
  sl_unfold_words
  rw [View.canon_unit_zero hz2_2]
  simp only [View.readAt_eq_ld, harg2.read_unread, harg3.read_unread, harg6.read_unread, View.ld_unit_zero (S := S8192) hz1_2, View.ld_unit_zero (S := S8192x64) hz2_2, View.ld_unit_zero (S := S512x64) hz2_2]

/-- At a run's last point the output block equals the bias added to the updated accumulator. -/
theorem oread2_C {hc0 : ¬cond2_0 i} {hc1 : cond2_1 i} (f) :
    arg5.view.read (Elt F) (arg5.view.writes (Elt F) f (kernelRun2_C c i arg2 harg2 arg3 harg3 arg4 harg4 arg5 harg5 arg6 harg6 hc0 hc1 x0 x1 x2 xs0).1) = k2_pay3 (k2_pay2 i x0 x1 xs0) x2 := by
  refine (View.read_writes_eq_canon _ _ _ (View.cover_of_tiledL _ S512x64.size (by sl_kernel_rfl))).trans ?_
  unfold kernelRun2_C
  dsimp only
  sl_unfold_words
  rw [View.canon_unit_zero hz2_2]
  simp only [View.readAt_eq_ld, harg2.read_unread, harg3.read_unread, harg4.read_unread, harg6.read_unread, View.readCov_unit_zero (S := S512x64) _ hz2_2, View.ld_unit_zero (S := S8192) hz1_2, View.ld_unit_zero (S := S64) hz1_2, View.ld_unit_zero (S := S8192x64) hz2_2, View.ld_unit_zero (S := S512x64) hz2_2]

end Pieces

section Entry
variable (V : (c : Dev nD) → (b : Ref sig .tc) → Buf (Elt F) ((c : Thread nD τ).loc b))

/-- The accumulator after point `n`: the update of the zero block at a run's first point, of what point `n - 1` left elsewhere. -/
def acc2 (c : Dev nD) (n : ℕ) (hn : n < cfg2.N) : Vec F S512x64 .f32 :=
  k2_pay2 (grid2.coords ⟨n, hn⟩) (iblk2 V c 0 ⟨n, hn⟩) (iblk2 V c 1 ⟨n, hn⟩)
    (if h : n % 98 = 0 then k2_pay1 (F := F) else acc2 c (n - 1) (by omega))
termination_by n
decreasing_by omega

theorem acc2_first (c : Dev nD) (t : Fin cfg2.N) (h : t.val % 98 = 0) :
    acc2 V c t.val t.isLt = k2_pay2 (grid2.coords t) (iblk2 V c 0 t) (iblk2 V c 1 t) (k2_pay1 (F := F)) := by
  rw [acc2, dif_pos h]

theorem acc2_next (c : Dev nD) (t : Fin cfg2.N) (h : ¬ t.val % 98 = 0) :
    acc2 V c t.val t.isLt = k2_pay2 (grid2.coords t) (iblk2 V c 0 t) (iblk2 V c 1 t)
      (acc2 V c (t.val - 1) (Nat.lt_of_le_of_lt (Nat.sub_le _ _) t.isLt)) := by
  rw [acc2, dif_neg h]

def PhiS2 (c : Dev nD) (n : ℕ) (h : n ≤ cfg2.N) : sProp 𝕄 :=
  if hz : n = 0 then Pipeline.ΦA spec2 c
  else iprop(iprop(owns c.tc scM2_0 fullShare (acc2 V c (n - 1) (by omega)) ∗ Rest2 c) ∗ (∃ r, prngReg c r))

/-- The accumulator's contents can always be forgotten. -/
theorem PhiS2_weak (c : Dev nD) (n : ℕ) (h : n ≤ cfg2.N) : PhiS2 V c n h ⊢ Pipeline.ΦA spec2 c := by
  unfold PhiS2; split
  · rfl
  rw [PhiA2_eq]
  iintro ⟨⟨HS0, HR⟩, Hg⟩
  iframe HR Hg
  iexists _; iexact HS0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val t.is_le
  q _ := fullShare
  owed _ := 0

theorem A_eq2 (c : Dev nD) (w : Fin cfg2.W) : (dat2 V c).A w = V c (Pipeline.arrRef spec2 w) := by
  dsimp only [dat2]

theorem after2_3_last (c : Dev nD) (t : Fin cfg2.N) (h : t.val % 98 = 97) :
    (dat2 V c).after 3 t = k2_pay3 (acc2 V c t.val t.isLt) (iblk2 V c 2 t) := by
  dsimp only [dat2]

theorem hin2 (c : Dev nD) : Pipeline.ΦA spec2 c ⊢ (dat2 V c).Φ 0 := .rfl

theorem hout2 (c : Dev nD) : (dat2 V c).Φ (Fin.last cfg2.N) ⊢ Pipeline.ΦA spec2 c :=
  PhiS2_weak V c _ (Fin.last cfg2.N).is_le

/-- Each point takes the accumulator from what the point before left (from anything at a run's first point) to `acc2` there. -/
theorem sound_body2 (c : Dev nD) (t : Fin cfg2.N) :
    iprop(PhiS2 V c t.val t.isLt.le ∗ (dat2 V c).owesAt () t.castSucc
      ∗ (∃ d, owns c.tc (ms2_0 t) fullShare ((dat2 V c).before 0 t d))
      ∗ (∃ d, owns c.tc (ms2_1 t) fullShare ((dat2 V c).before 1 t d))
      ∗ (∃ d, owns c.tc (ms2_2 t) fullShare ((dat2 V c).before 2 t d))
      ∗ (∃ d, owns c.tc (ms2_3 t) fullShare ((dat2 V c).before 3 t d)))
    ⊢ wp frame (wpE (defs₀ (F := F)) Variants.none c none) Set.univ (bodyAt2 t) (fun _ =>
      iprop(iprop(iprop(owns c.tc scM2_0 fullShare (acc2 V c t.val t.isLt) ∗ Rest2 c) ∗ (∃ r, prngReg c r)) ∗ (dat2 V c).owesAt () t.castSucc
        ∗ owns c.tc (ms2_0 t) fullShare (iblk2 V c 0 t) ∗ owns c.tc (ms2_1 t) fullShare (iblk2 V c 1 t)
        ∗ owns c.tc (ms2_2 t) fullShare (iblk2 V c 2 t) ∗ (dat2 V c).leavesExact 3 t)) := by
  simp only [before2_0_of V (dat2 V c) (A_eq2 V c 0) (fun t => by dsimp only [dat2]), before2_1_of V (dat2 V c) (A_eq2 V c 1) (fun t => by dsimp only [dat2]), before2_2_of V (dat2 V c) (A_eq2 V c 2) (fun t => by dsimp only [dat2])]
  by_cases h0 : t.val % 98 = 0
  · have c1 := mt (hcond2_1 t).mp (show ¬t.val % 98 = 97 by omega)
    rw [Dat.leavesExact_idle (dat2 V c) 3 t (idleAt2_3 t c1) (noFlush2_3 t c1), acc2_first V c t h0]
    refine (sep_mono_left (PhiS2_weak V c _ _)).trans ?_
    rw [PhiA2_eq]
    iintro ⟨⟨⟨HS0, HR⟩, Hg⟩, Ho, ⟨%d0, H0⟩, ⟨%d1, H1⟩, ⟨%d2, H2⟩, ⟨%d3, H3⟩⟩
    iapply (kernelRun2_A _ _ _ _ _ _ _ _ _ _ _ _ ((hcond2_0 t).mpr h0) c1 _ _ _).2.2 _ _ _
    iframe H0 H1 H2 H3 HS0
    iintro ⟨H0, H1, H2, H3, ⟨%es0, HS0⟩⟩
    iframe HR Hg Ho H0 H1 H2
    isplitl [HS0]
    · unfold owns; iexists _; isplitr
      swap; · iexact HS0
      ipureintro; exact sread2_A es0
    iexists _; iexact H3
  · have c0 := mt (hcond2_0 t).mp h0
    rw [PhiS2, dif_neg fun e => h0 (by rw [e])]
    iintro ⟨⟨⟨HS0, HR⟩, Hg⟩, Ho, ⟨%d0, H0⟩, ⟨%d1, H1⟩, ⟨%d2, H2⟩, ⟨%d3, H3⟩⟩
    by_cases h1 : t.val % 98 = 97
    · have c1 := (hcond2_1 t).mpr h1
      rw [show (dat2 V c).leavesExact 3 t = owns c.tc (ms2_3 t) fullShare ((dat2 V c).after 3 t) from by
        unfold Dat.leavesExact; rw [liveAt2_3 t c1], after2_3_last V c t h1, acc2_next V c t h0]
      iapply (kernelRun2_C _ _ _ _ _ _ _ _ _ _ _ _ c0 c1 _ _ _ _).2.2 _ _
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact sread2_C es0
      unfold owns; iexists _; isplitr
      swap; · iexact H3
      ipureintro; exact oread2_C e3
    · have c1 := mt (hcond2_1 t).mp h1
      rw [Dat.leavesExact_idle (dat2 V c) 3 t (idleAt2_3 t c1) (noFlush2_3 t c1), acc2_next V c t h0]
      iapply (kernelRun2_B _ _ _ _ _ _ _ _ _ _ _ _ c0 c1 _ _ _ _).2.2 _ _ _
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact sread2_B es0
      iexists _; iexact H3

theorem body_obligation2 (c : Dev nD) : BodyObligation (dat2 (F := F) V c) (defs₀ (F := F)) Variants.none () Set.univ := fun t => by
  rw [bigSep_W2, bigSep_W2]
  exact sound_body2 V c t

end Entry

end Cert.KernelIdeal.Conv

end
-- ==== Proof.KI.Run.lean ====
import proofs.«405544_j71923522339430_1_alg».proof.Proof.KI.R0
import proofs.«405544_j71923522339430_1_alg».proof.Proof.KI.R1
import proofs.«405544_j71923522339430_1_alg».proof.Proof.KI.R2
import proofs.«405544_j71923522339430_1_alg».proof.Proof.Gen.KernelIdeal.Regions

noncomputable section

namespace Cert.KernelIdeal.Conv

open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.ShloMosaic.Pipeline Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rd (W : Dev nD → Valuation τ sig (Elt F)) (c : Dev nD) (b : Ref sig .tc) : Buf (Elt F) ((c : Thread nD τ).loc b) := W c b

abbrev W0 : Dev nD → Valuation τ sig (Elt F) := V0 m
abbrev W8 : Dev nD → Valuation τ sig (Elt F) := Gen.V8 m
abbrev V8 := rd (W8 m)
/-- What a region leaves: its arrays as written back, every other reference as entered. -/
def W9 (c : Dev nD) : Valuation τ sig (Elt F) :=
  withArrays spec0 c (W8 m c) fun w => (dat0 (V8 m) c).arrAt w cfg0.N
abbrev V9 := rd (W9 m)
def W10 (c : Dev nD) : Valuation τ sig (Elt F) :=
  withArrays spec1 c (W9 m c) fun w => (dat1 (V9 m) c).arrAt w cfg1.N
abbrev V10 := rd (W10 m)
def W11 (c : Dev nD) : Valuation τ sig (Elt F) :=
  withArrays spec2 c (W10 m c) fun w => (dat2 (V10 m) c).arrAt w cfg2.N
abbrev V11 := rd (W11 m)
abbrev W12 (c : Dev nD) : Valuation τ sig (Elt F) := StableHlo.after hostOps3 (W11 m c)

theorem W9_arr (c : Dev nD) (w : Fin cfg0.W) :
    W9 m c (Proc.devRef .tc (arrRef spec0 w)) = (dat0 (V8 m) c).arrAt w cfg0.N :=
  withArrays_arr spec0 launch0.win.arr_inj c _ _ w
theorem W9_of_ne (c : Dev nD) (b : Ref sig .tc) (hb : ∀ w, arrRef spec0 w ≠ b) :
    W9 m c (Proc.devRef .tc b) = W8 m c (Proc.devRef .tc b) :=
  withArrays_of_ne spec0 c _ _ b hb
theorem W10_arr (c : Dev nD) (w : Fin cfg1.W) :
    W10 m c (Proc.devRef .tc (arrRef spec1 w)) = (dat1 (V9 m) c).arrAt w cfg1.N :=
  withArrays_arr spec1 launch1.win.arr_inj c _ _ w
theorem W10_of_ne (c : Dev nD) (b : Ref sig .tc) (hb : ∀ w, arrRef spec1 w ≠ b) :
    W10 m c (Proc.devRef .tc b) = W9 m c (Proc.devRef .tc b) :=
  withArrays_of_ne spec1 c _ _ b hb
theorem W11_arr (c : Dev nD) (w : Fin cfg2.W) :
    W11 m c (Proc.devRef .tc (arrRef spec2 w)) = (dat2 (V10 m) c).arrAt w cfg2.N :=
  withArrays_arr spec2 launch2.win.arr_inj c _ _ w
theorem W11_of_ne (c : Dev nD) (b : Ref sig .tc) (hb : ∀ w, arrRef spec2 w ≠ b) :
    W11 m c (Proc.devRef .tc b) = W10 m c (Proc.devRef .tc b) :=
  withArrays_of_ne spec2 c _ _ b hb

def pdats : (p : Fin 3) → (c : Dev nD) → Dat τ (Elt F) Unit ℕ (UR sig nD τ) ℕ (cfgs p) c
  | ⟨0, _⟩ => dat0 (V8 m)
  | ⟨1, _⟩ => dat1 (V9 m)
  | ⟨2, _⟩ => dat2 (V10 m)
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Between two segments every unscoped reference holds `W`. -/
abbrev T (W : Dev nD → Valuation τ sig (Elt F)) (c : Dev nD) : sProp 𝕄 :=
  iprop(StableHlo.held (c : Thread nD τ) (ucRefs τ sig) (W c) ∗ R c)

theorem mem_uc (b : Ref sig .tc) (h : ¬ (Proc.devRef .tc b : DevRef τ sig).isScoped) : Proc.devRef .tc b ∈ ucRefs τ sig :=
  Finset.mem_filter.mpr ⟨StableHlo.devRef_mem_tcRefs b, h⟩

/-- Region `p` entered at contents `W`: its arrays are taken out of the held contents and put back as written; nothing is owed. -/
def reg (p : Fin 3) (lf : LaunchFacts (nD := nD) (τ := τ) cfgs p) (W : Dev nD → Valuation τ sig (Elt F))
    (hb : ∀ c, BodyObligation (pdats m p c) defs₀ 𝒱₀ () Set.univ)
    (hA : ∀ c w, (pdats m p c).A w = rd W c (arrRef (cfgs p).spec w))
    (hq : ∀ c w, (pdats m p c).q w = fullShare) (h0 : ∀ c t, (pdats m p c).owed t = 0) (hr : ∀ c, (pdats m p c).recorded 0 = Set.univ)
    (hi : ∀ c, ΦA (cfgs p).spec c ⊢ (pdats m p c).Φ 0)
    (hl : ∀ c, (pdats m p c).Φ (Fin.last _) ⊢ ΦA (cfgs p).spec c) :
    RegionSeg pcfgs adm (pdats m) () defs₀ 𝒱₀ L lv p where
  win := lf.win.to₀
  block_pos := lf.block_pos
  stage_whole := lf.stage_whole
  K := PEmpty
  osem k := k.elim
  ho := OwnSemFacts.none _
  hbody c := (hb c).loose
  hwaits := hwaits_of_owed_zero _ _ _ _ L lv p h0
  pre := T W
  post := T fun c => withArrays (cfgs p).spec c (W c) fun w => (pdats m p c).arrAt w (cfgs p).N
  X c := iprop(∃ r, prngReg c r)
  Y c := iprop(∃ r, prngReg c r)
  Z c := unscopedRest (cfgs p).spec c (rd W c)
  hentry c := by
    have hs := arrays_of_unscopedBufs pcfgs adm (pdats m) lf.win lf.arr_whole c
      ((pdats m p c).share_full (hq c)) (rd W c) (hA c)
    rw [unscopedBufs_held] at hs
    unfold Dat.owesAt owesWithin Dat.bound prefHeld
    rw [h0 c, hr c, show (Finset.univ : Finset (Fin 0)) = ∅ from rfl, BI.bigSep_empty]
    iintro ⟨⟨Hub, Hp, %W, HO⟩, -, -⟩
    ihave ⟨Ha, Hrest⟩ := hs $$ Hub
    imodintro
    iframe
    isplitr; · iempintro
    iexists W; iframe
    ipureintro; exact fun _ _ => .inl trivial
  hin c := (sep_mono_right sep_elim_right).trans (sep_comm.1.trans (hi c))
  hout c := by rw [ownSems0_none]; exact (hl c).trans (sep_comm.1.trans (sep_mono_right BIClass.emp_sep.2))
  hexit c := by
    have hj := unscopedBufs_of_arrays pcfgs adm lf.win lf.arr_whole c (pdats m) ((pdats m p c).share_full (hq c)) (rd W c)
      (rd (fun c => withArrays (cfgs p).spec c (W c) fun w => (pdats m p c).arrAt w (cfgs p).N) c) _
      (fun w => (withArrays_arr _ lf.win.arr_inj c _ ((pdats m p c).arrAt · (cfgs p).N) w).symm)
      (fun b hb => withArrays_of_ne _ c _ _ b fun w e => hb (Finset.mem_image.mpr ⟨w, Finset.mem_univ _, e⟩))
    rw [unscopedBufs_held] at hj
    unfold Dat.owesAt owesWithin T R
    rw [h0 c]
    iintro ⟨Ha, ⟨%W, -, HO⟩, HY, Hrest⟩
    imodintro
    isplitl [Ha Hrest]
    · iapply hj; iframe
    iframe; iexists W; iexact HO

abbrev reg0 := reg m 0 launch0 (W8 m) (body_obligation0 (V8 m)) (fun _ _ => rfl) (fun _ _ => rfl) (fun _ _ => rfl) (fun _ => rfl)
  (fun c => .of_eq (Phi_eq0 (V8 m) c 0).symm) fun c => .of_eq (Phi_eq0 (V8 m) c _)
abbrev reg1 := reg m 1 launch1 (W9 m) (body_obligation1 (V9 m)) (fun _ _ => rfl) (fun _ _ => rfl) (fun _ _ => rfl) (fun _ => rfl)
  (hin1 (V9 m)) (hout1 (V9 m))
abbrev reg2 := reg m 2 launch2 (W10 m) (body_obligation2 (V10 m)) (fun _ _ => rfl) (fun _ _ => rfl) (fun _ _ => rfl) (fun _ => rfl)
  (hin2 (V10 m)) (hout2 (V10 m))

abbrev E : Fin 4 → Dev nD → sProp 𝕄 := fun _ => R

/-- The program's twelve segments in order. -/
abbrev segs : List (Seg pcfgs adm (pdats m) () defs₀ 𝒱₀ L lv) :=
  [.host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .region (reg0 m), .region (reg1 m), .region (reg2 m),
    .host (.ofOps _ _ _ _ _ (ucRefs τ sig) hostOps3
      (fun op h => sub_ucRefs op (List.forall_iff_forall_mem.mp hostOps3_sub op h))
      (List.forall_iff_forall_mem.mp hostOps3_fresh) (W11 m) R)]

/-- THE RUN: every weakly fair execution terminates, and the final memory holds `W12` at every unscoped reference. -/
theorem run_all : θ_run defs (onTc (τ := τ) (main (F := F))) ⟨m, fun _ => 0, ρ⟩ (fun r => ∀ c : Dev nD,
      ∀ b ∈ ucRefs τ sig, r.2.mem (((c : Thread nD τ)).1, b) = W12 m c b) :=
  θ_run_regions_kit pcfgs adm (pdats m) () cellOf_inj emb₁ defs₀ 𝒱₀ L lv m ρ main (segs m)
    (fun c Q => by rw [main_chain c, Seg.run_eq_chain]; exact .rfl)
    (by simp only [segs, Seg.pipes_host, Seg.pipes_region, Seg.pipes_nil]; decide)
    (O₀ := 0) (hL := fun _ _ => rfl) (G := fun _ => BI.emp)
    (u₀ := initOf (cells cfgs cellOf_inj) (launchToks cfgs cellOf_inj))
    (hu₀ := by rw [BI.bigSep_emp_const]; exact sep_emp.2.trans fupd_intro)
    (T₀ := T (W0 m))
    (Tₙ := fun c => StableHlo.held (c : Thread nD τ) (ucRefs τ sig) (W12 m c))
    (hch := by iterate 12 refine ⟨fun _ => .rfl, ?_⟩
               exact fun _ => sep_mono_right sep_elim_right)
    (hinit := by
      refine initEach L lv fun c => ?_
      erw [unscopedBufs_held c (W0 m c)]
      unfold T R
      iintro ⟨⟨Hh, -, HO, -, Hp, -⟩, -⟩
      imodintro
      iframe
      isplitl [Hp] <;> iexists _ <;> iassumption)
    (hfin := fun c s' => (pointsTo_read_all (ucRefs τ sig) (fun b => ((c : Thread nD τ).1, b)) (W12 m c) s').trans fupd_intro)
    (hQ := fun _ h => h)

/-- The references the host stretches before the regions write. -/
abbrev hostW : List (Ref sig .tc) :=
  hostOps0_W ++ hostOps0_1_W ++ hostOps0_2_W ++ hostOps0_3_W ++ hostOps0_4_W ++ hostOps0_5_W ++ hostOps0_6_W ++ hostOps0_7_W

/-- A reference none of them writes enters the first region with its initial contents. -/
theorem W8_of (c : Dev nD) (r : Ref sig .tc) (h : r ∉ hostW) : W8 m c r = m ((c : Thread nD τ).loc r) := by
  simp only [hostW, List.mem_append, not_or] at h
  obtain ⟨⟨⟨⟨⟨⟨⟨h0, h1⟩, h2⟩, h3⟩, h4⟩, h5⟩, h6⟩, h7⟩ := h
  exact (V8_of m c r h7).trans <| (V7_of m c r h6).trans <| (V6_of m c r h5).trans <| (V5_of m c r h4).trans <|
    (V4_of m c r h3).trans <| (V3_of m c r h2).trans <| (V2_of m c r h1).trans (V1_of m c r h0)
theorem W8_arg4 (c : Dev nD) : W8 m c main_arg4 = m ((c : Thread nD τ).loc main_arg4) := W8_of m c _ (by decide)
theorem W8_arg5 (c : Dev nD) : W8 m c main_arg5 = m ((c : Thread nD τ).loc main_arg5) := W8_of m c _ (by decide)

/-- A reference that no host stretch writes and that is no region's array ends with its initial contents. -/
theorem W12_of (c : Dev nD) (r : Ref sig .tc) (h : r ∉ hostOps3_W ∧ (∀ w, arrRef spec2 w ≠ r) ∧ (∀ w, arrRef spec1 w ≠ r)
      ∧ (∀ w, arrRef spec0 w ≠ r) ∧ r ∉ hostW) :
    W12 m c r = m ((c : Thread nD τ).loc r) :=
  (StableHlo.after_of_writes_sub hostOps3 _ hostOps3_writes h.1).trans <| (W11_of_ne m c r h.2.1).trans <|
    (W10_of_ne m c r h.2.2.1).trans <| (W9_of_ne m c r h.2.2.2.1).trans (W8_of m c r h.2.2.2.2)
theorem W12_arg0 (c : Dev nD) : W12 m c main_arg0 = m ((c : Thread nD τ).loc main_arg0) := W12_of m c _ (by decide)
theorem W12_arg1 (c : Dev nD) : W12 m c main_arg1 = m ((c : Thread nD τ).loc main_arg1) := W12_of m c _ (by decide)
theorem W12_arg2 (c : Dev nD) : W12 m c main_arg2 = m ((c : Thread nD τ).loc main_arg2) := W12_of m c _ (by decide)
theorem W12_arg3 (c : Dev nD) : W12 m c main_arg3 = m ((c : Thread nD τ).loc main_arg3) := W12_of m c _ (by decide)
/-- The first region only reads it. -/
theorem W12_arg4 (c : Dev nD) : W12 m c main_arg4 = m ((c : Thread nD τ).loc main_arg4) :=
  (StableHlo.after_of_writes_sub hostOps3 _ hostOps3_writes (r := main_arg4) (by decide)).trans <| (W11_of_ne m c _ (by decide)).trans <|
    (W10_of_ne m c _ (by decide)).trans <| (W9_arr m c 1).trans <| ((dat0 (V8 m) c).arrAt_in 1 rfl _).trans <|
    (A_eq0 (V8 m) c 1).trans (W8_arg4 m c)
/-- The last region only reads it. -/
theorem W12_arg5 (c : Dev nD) : W12 m c main_arg5 = m ((c : Thread nD τ).loc main_arg5) :=
  (StableHlo.after_of_writes_sub hostOps3 _ hostOps3_writes (r := main_arg5) (by decide)).trans <| (W11_arr m c 2).trans <|
    ((dat2 (V10 m) c).arrAt_in 2 rfl _).trans <| (A_eq2 (V10 m) c 2).trans <| (W10_of_ne m c _ (by decide)).trans <|
    (W9_of_ne m c _ (by decide)).trans (W8_arg5 m c)

/-- THE FRAME: every weakly fair execution terminates and the six arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc _ (by decide))).trans (W12_arg0 m c), (h c _ (mem_uc _ (by decide))).trans (W12_arg1 m c),
      (h c _ (mem_uc _ (by decide))).trans (W12_arg2 m c), (h c _ (mem_uc _ (by decide))).trans (W12_arg3 m c),
      (h c _ (mem_uc _ (by decide))).trans (W12_arg4 m c), (h c _ (mem_uc _ (by decide))).trans (W12_arg5 m c)⟩) (run_all m ρ)

end Cert.KernelIdeal.Conv

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![50000, 128]⟩
abbrev SE : Shape := ⟨1, ![800000]⟩
abbrev SW : Shape := ⟨2, ![128, 64]⟩
abbrev SB : Shape := ⟨1, ![64]⟩

def xrow (x : SX.Idx → EReal) (r : ℕ) (k : Fin 128) : EReal :=
  if h : r < 50000 then x (ix2 ⟨r, h⟩ k) else 0

def proj (x : SX.Idx → EReal) (W : SW.Idx → EReal) (r : ℕ) (g : Fin 64) : EReal :=
  ∑ k : Fin 128, xrow x r k * W (ix2 k g)

def msg (x : SX.Idx → EReal) (src : SE.Idx → BitVec 32) (vals : SE.Idx → EReal) (W : SW.Idx → EReal)
    (e : Fin 800000) (g : Fin 64) : EReal :=
  vals (ix1 e) * proj x W (src (ix1 e)).toNat g

/-- The result at node `i`, feature `g`: the messages of the edges into `i`, plus the bias. -/
def G (x : SX.Idx → EReal) (src dst : SE.Idx → BitVec 32) (vals : SE.Idx → EReal) (W : SW.Idx → EReal)
    (b : SB.Idx → EReal) (i : Fin 50000) (g : Fin 64) : EReal :=
  (∑ e ∈ Finset.univ.filter (fun e : Fin 800000 => (dst (ix1 e)).toInt = (i.val : Int)), msg x src vals W e g)
    + b (ix1 g)

/-- Every source word names a node. -/
def SrcInRange (src : SE.Idx → BitVec 32) : Prop :=
  ∀ e : Fin 800000, 0 ≤ (src (ix1 e)).toInt ∧ (src (ix1 e)).toInt < 50000

end Cert.Spec

end
-- ==== Proof.SpecPad.lean ====
import proofs.«405544_j71923522339430_1_alg».proof.Proof.Spec

noncomputable section

open scoped BigOperators

namespace Cert.Spec

open Idealize.ShloMosaic Idealize.ShloMosaic.ValueIdx

def onehot (w : BitVec 32) (n : ℕ) : EReal := if w = BitVec.ofNat 32 n then 1 else 0

def padW (a : SE.Idx → BitVec 32) (e : Fin 802816) : BitVec 32 :=
  if h : e.val < 800000 then a (ix1 ⟨e.val, h⟩) else 0#32

def padR (a : SE.Idx → EReal) (e : Fin 802816) : EReal :=
  if h : e.val < 800000 then a (ix1 ⟨e.val, h⟩) else 0

/-- An edge's message as the kernel forms it: the projected row picked by a 0/1 weight over all padded nodes. -/
def msgK (x : SX.Idx → EReal) (src : SE.Idx → BitVec 32) (vals : SE.Idx → EReal) (W : SW.Idx → EReal)
    (e : Fin 802816) (g : Fin 64) : EReal :=
  (∑ n : Fin 50176, onehot (padW src e) n.val * proj x W n.val g) * padR vals e

/-- The same total as the kernel forms it: over all padded edges, each weighted 0/1 by its destination word. -/
def aggK (x : SX.Idx → EReal) (src dst : SE.Idx → BitVec 32) (vals : SE.Idx → EReal) (W : SW.Idx → EReal)
    (b : SB.Idx → EReal) (n : Fin 50176) (g : Fin 64) : EReal :=
  (∑ e : Fin 802816, onehot (padW dst e) n.val * msgK x src vals W e g) + b (ix1 g)

end Cert.Spec

end
-- ==== Proof.LibTRefCast.lean ====
import Idealize.ShloMosaic.Lib.StableHlo

namespace Idealize.ShloMosaic.StableHlo.TRef

variable {sig : RefSig} {Val : EltTy → Type} {T : BufTy}

theorem ofBuf_toBuf (x : TRef sig T) (v : T.Contents Val) : x.ofBuf (x.toBuf v) = v := by
  obtain ⟨r, h, _, _⟩ := x
  subst h
  rfl

end Idealize.ShloMosaic.StableHlo.TRef
-- ==== Proof.KI.HostRead.lean ====
import proofs.«405544_j71923522339430_1_alg».proof.Proof.KI.Run
import proofs.«405544_j71923522339430_1_alg».proof.Proof.SpecPad
import proofs.«405544_j71923522339430_1_alg».proof.Proof.LibTRefCast
import Idealize.ShloMosaic.Lib.KernelVsHost
import Idealize.ShloMosaic.Lib.ValueLayout
import Idealize.ShloMosaic.Lib.StableHlo.Run

set_option maxRecDepth 16384

noncomputable section

namespace Cert.KernelIdeal.Conv

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

abbrev aX (c : Dev nD) : S50000x128.Idx → EReal := m ((c : Thread nD τ).loc main_arg0)
abbrev aSrc (c : Dev nD) : S800000.Idx → BitVec 32 := m ((c : Thread nD τ).loc main_arg1)
abbrev aDst (c : Dev nD) : S800000.Idx → BitVec 32 := m ((c : Thread nD τ).loc main_arg2)
abbrev aVal (c : Dev nD) : S800000.Idx → EReal := m ((c : Thread nD τ).loc main_arg3)
abbrev aW (c : Dev nD) : S128x64.Idx → EReal := m ((c : Thread nD τ).loc main_arg4)
abbrev aB (c : Dev nD) : S64.Idx → EReal := m ((c : Thread nD τ).loc main_arg5)

abbrev pX (c : Dev nD) : S50176x128.Idx → EReal := W8 m c main_v0
abbrev pSrc (c : Dev nD) : S802816.Idx → BitVec 32 := W8 m c main_v1
abbrev pDst (c : Dev nD) : S802816.Idx → BitVec 32 := W8 m c main_v2
abbrev pVal (c : Dev nD) : S802816.Idx → EReal := W8 m c main_v3

theorem padval_f : (sitofp (F := Ideal) .f32 (constantI S_ 32 0#32) : S_.Idx → EReal) (Shape.Idx.first h_S_) = 0 := by
  show ((((0#32 : BitVec 32).toInt : ℤ) : ℝ) : EReal) = 0
  simp

theorem pX_eq (c : Dev nD) : pX m c
    = pad S50176x128 ![0, 0] ![176, 0] ![0, 0] (aX m c) (sitofp (F := Ideal) .f32 (constantI S_ 32 0#32))
        pads_S50000x128_S50176x128_01760_000 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m c)))))))) (Proc.devRef .tc main_v0) = _
  after_results
  simp only [StableHlo.TRef.ofBuf_toBuf]
  rfl

theorem pSrc_eq (c : Dev nD) : pSrc m c
    = pad S802816 ![0] ![2816] ![0] (aSrc m c) (constantI S_ 32 0#32) pads_S800000_S802816_028160 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m c)))))))) (Proc.devRef .tc main_v1) = _
  after_results
  simp only [StableHlo.TRef.ofBuf_toBuf]
  rfl

theorem pDst_eq (c : Dev nD) : pDst m c
    = pad S802816 ![0] ![2816] ![0] (aDst m c) (constantI S_ 32 0#32) pads_S800000_S802816_028160 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m c)))))))) (Proc.devRef .tc main_v2) = _
  after_results
  simp only [StableHlo.TRef.ofBuf_toBuf]
  rfl

theorem pVal_eq (c : Dev nD) : pVal m c
    = pad S802816 ![0] ![2816] ![0] (aVal m c) (sitofp (F := Ideal) .f32 (constantI S_ 32 0#32)) pads_S800000_S802816_028160 h_S_ := by
  show StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (W0 m c)))))))) (Proc.devRef .tc main_v3) = _
  after_results
  simp only [StableHlo.TRef.ofBuf_toBuf]
  rfl

theorem pX_apply (c : Dev nD) (n : Fin 50176) (k : Fin 128) :
    pX m c (ix2 n k) = Cert.Spec.xrow (aX m c) n.val k := by
  rw [pX_eq]
  unfold Cert.Spec.xrow
  split
  · rename_i h
    exact pad_apply_of_inside _ _ _ _ _ _ _ (ix2 n k) (ix2 ⟨n.val, h⟩ k) (fun a => by
      match a with
      | ⟨0, _⟩ => show n.val = 0 + n.val * (0 + 1); omega
      | ⟨1, _⟩ => show k.val = 0 + k.val * (0 + 1); omega)
  · rename_i h
    refine (pad_apply_of_not_inside _ _ _ _ _ _ _ (ix2 n k) 0 (fun hh => h ?_)).trans (padval_f)
    have := hh.2.2
    have e : ((ix2 n k : S50176x128.Idx) ((0 : Fin S50000x128.rank).cast pads_S50000x128_S50176x128_01760_000.1)).val = n.val := rfl
    rw [e] at this
    simpa using this

/-- A vector padded at its end reads as itself inside its length and as the padding value beyond it. -/
theorem pad1_apply {α : Type} (a : S800000.Idx → α) (z : S_.Idx → α) (e : Fin 802816) :
    pad S802816 ![0] ![2816] ![0] a z pads_S800000_S802816_028160 h_S_ (ix1 e)
      = if h : e.val < 800000 then a (ix1 ⟨e.val, h⟩) else z (Shape.Idx.first h_S_) := by
  split
  · rename_i h
    exact pad_apply_of_inside _ _ _ _ _ _ _ (ix1 e) (ix1 ⟨e.val, h⟩) (fun a => by
      match a with
      | ⟨0, _⟩ => show e.val = 0 + e.val * (0 + 1); omega)
  · rename_i h
    refine pad_apply_of_not_inside _ _ _ _ _ _ _ (ix1 e) 0 (fun hh => h ?_)
    have := hh.2.2
    have e' : ((ix1 e : S802816.Idx) ((0 : Fin S800000.rank).cast pads_S800000_S802816_028160.1)).val = e.val := rfl
    rw [e'] at this
    simpa using this

theorem pSrc_apply (c : Dev nD) (e : Fin 802816) : pSrc m c (ix1 e) = Cert.Spec.padW (aSrc m c) e := by
  rw [pSrc_eq, pad1_apply]; rfl

theorem pDst_apply (c : Dev nD) (e : Fin 802816) : pDst m c (ix1 e) = Cert.Spec.padW (aDst m c) e := by
  rw [pDst_eq, pad1_apply]; rfl

theorem pVal_apply (c : Dev nD) (e : Fin 802816) : pVal m c (ix1 e) = Cert.Spec.padR (aVal m c) e := by
  rw [pVal_eq, pad1_apply, padval_f]; rfl

theorem res_apply (c : Dev nD) (i : Fin 50000) (g : Fin 64) :
    (W12 m c main_v7 : S50000x64.Idx → EReal) (ix2 i g)
      = (W11 m c main_v6 : S50176x64.Idx → EReal) (ix2 ⟨i.val, by omega⟩ g) := by
  have e : (W12 m c main_v7 : S50000x64.Idx → EReal)
      = extractStridedSlice S50000x64 ![0, 0] (W11 m c main_v6 : S50176x64.Idx → EReal) slices_S50176x64_S50000x64_0_0 := by
    show StableHlo.after hostOps3 (W11 m c) (Proc.devRef .tc main_v7) = _
    after_results
  rw [e]
  exact slice2_axis0_apply 0 _ _ i g ⟨i.val, by omega⟩ (by simp)

end Cert.KernelIdeal.Conv

end
-- ==== Proof.KI.V0.lean ====
import proofs.«405544_j71923522339430_1_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.Conv.Val0
open Idealize.ShloMosaic Idealize.ShloMosaic.TcCoe
open Cert.KernelIdeal Cert.KernelIdeal.Gen

variable {F : FTy → Type} [FloatOps F]

section Value0

theorem offsets_zero : (![0, 0] : Fin 2 → Nat) = fun _ => 0 := funext fun a => by fin_cases a <;> rfl

theorem lhs_axis_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs_axis_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs_axis_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs_axis_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

theorem block_product_apply (x0 : Vec Ideal S512x128 .f32) (x1 : Vec Ideal S128x64 .f32) (r : Fin 512) (g : Fin 64) :
    k0_pay1 (F := Ideal) x0 x1 (ValueIdx.ix2 r g) = ∑ k : Fin 128, x0 (ValueIdx.ix2 r k) * x1 (ValueIdx.ix2 k g) := by
  unfold k0_pay1
  simp only [shapeCast_self]
  refine (Ideal.matmul_constant_zero_apply dot_S512x128_S128x64_S512x64_1_0_0_1_n_n none _ _ (ValueIdx.ix2 r g)).trans ?_
  rw [← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ValueIdx.ix2 r g) ((ValueIdx.contrEquiv1 dot_S512x128_S128x64_S512x64_1_0_0_1_n_n 128 rfl rfl).symm k) = ValueIdx.ix2 r k := funext fun a => Fin.ext (by
    match a with
    | ⟨0, _⟩ => exact lhs_axis_0 _ _
    | ⟨1, _⟩ => exact (lhs_axis_1 _ _).trans hk)
  have er : dot_S512x128_S128x64_S512x64_1_0_0_1_n_n.rhsIdx (ValueIdx.ix2 r g) ((ValueIdx.contrEquiv1 dot_S512x128_S128x64_S512x64_1_0_0_1_n_n 128 rfl rfl).symm k) = ValueIdx.ix2 k g := funext fun a => Fin.ext (by
    match a with
    | ⟨0, _⟩ => exact (rhs_axis_0 _ _).trans hk
    | ⟨1, _⟩ => exact rhs_axis_1 _ _)
  show x0 (dot_S512x128_S128x64_S512x64_1_0_0_1_n_n.lhsIdx (ValueIdx.ix2 r g) ((ValueIdx.contrEquiv1 dot_S512x128_S128x64_S512x64_1_0_0_1_n_n 128 rfl rfl).symm k))
      * x1 (dot_S512x128_S128x64_S512x64_1_0_0_1_n_n.rhsIdx (ValueIdx.ix2 r g) ((ValueIdx.contrEquiv1 dot_S512x128_S128x64_S512x64_1_0_0_1_n_n 128 rfl rfl).symm k)) = _
  rw [el, er]

def Gh (X : S50176x128.Idx → EReal) (W : S128x64.Idx → EReal) : S50176x64.Idx → EReal :=
  fun i => ∑ k : Fin 128, X (ValueIdx.ix2 (i 0) k) * W (ValueIdx.ix2 k (i 1))

/-- A row block of the product is the product's rows: the contraction runs over the whole shared axis within the block. -/
theorem block_eq_whole (X : S50176x128.Idx → EReal) (W : S128x64.Idx → EReal)
    (x0 : Vec Ideal S512x128 .f32) (x1 : Vec Ideal S128x64 .f32) (b : ℕ)
    (h0 : ∀ (r : Fin 512) (k : Fin 128) (n : Fin 50176), n.val = b * 512 + r.val → x0 (ValueIdx.ix2 r k) = X (ValueIdx.ix2 n k))
    (h1 : ∀ (k : Fin 128) (g : Fin 64), x1 (ValueIdx.ix2 k g) = W (ValueIdx.ix2 k g))
    (j : S512x64.Idx) (i : S50176x64.Idx) (hi0 : (i 0).val = b * 512 + (j 0).val) (hi1 : (i 1).val = (j 1).val) :
    k0_pay1 (F := Ideal) x0 x1 j = Gh X W i := by
  obtain ⟨p, q, rfl⟩ : ∃ (p : Fin 512) (q : Fin 64), j = ValueIdx.ix2 p q := ⟨j 0, j 1, ValueIdx.eq_ix2 j⟩
  rw [block_product_apply]
  unfold Gh
  refine Finset.sum_congr rfl fun k _ => ?_
  rw [h0 p k (i 0) hi0, h1 k q]
  have e1 : (i 1 : Fin 64) = q := Fin.ext hi1
  rw [e1]

abbrev xarr (V : (c : Dev nD) → (b : Ref sig .tc) → Buf (Elt Ideal) ((c : Thread nD τ).loc b)) (c : Dev nD) : S50176x128.Idx → EReal := V c main_v0
abbrev warr (V : (c : Dev nD) → (b : Ref sig .tc) → Buf (Elt Ideal) ((c : Thread nD τ).loc b)) (c : Dev nD) : S128x64.Idx → EReal := V c main_arg4

abbrev oarr (V : (c : Dev nD) → (b : Ref sig .tc) → Buf (Elt Ideal) ((c : Thread nD τ).loc b)) (c : Dev nD) : S50176x64.Idx → EReal := (dat0 (F := Ideal) V c).arrAt 2 cfg0.N

variable (V : (c : Dev nD) → (b : Ref sig .tc) → Buf (Elt Ideal) ((c : Thread nD τ).loc b))

theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem xblock_apply (c : Dev nD) (t : Fin cfg0.N) (r : Fin 512) (k : Fin 128) (n : Fin 50176) (hn : n.val = t.val * 512 + r.val) :
    (iblk0 V c 0 t : Vec Ideal S512x128 .f32) (ValueIdx.ix2 r k) = xarr V c (ValueIdx.ix2 n k) := by
  obtain ⟨e0, e1, -, -, -, -⟩ := index_facts t
  show V c main_v0 (((cfg0.win 0).blk t).view.emb (ValueIdx.ix2 r k)) = V c main_v0 (ValueIdx.ix2 n k)
  congr 1
  funext a
  apply Fin.ext
  match a with
  | ⟨0, _⟩ => show win0_0.index t (0 : Fin 2) * 512 + 1 * r.val = n.val; rw [e0, hn]; omega
  | ⟨1, _⟩ => show win0_0.index t (1 : Fin 2) * 128 + 1 * k.val = k.val; rw [e1]; omega

theorem wblock_apply (c : Dev nD) (t : Fin cfg0.N) (k : Fin 128) (g : Fin 64) :
    (iblk0 V c 1 t : Vec Ideal S128x64 .f32) (ValueIdx.ix2 k g) = warr V c (ValueIdx.ix2 k g) := by
  obtain ⟨-, -, e2, e3, -, -⟩ := index_facts t
  show V c main_arg4 (((cfg0.win 1).blk t).view.emb (ValueIdx.ix2 k g)) = V c main_arg4 (ValueIdx.ix2 k g)
  congr 1
  funext a
  apply Fin.ext
  match a with
  | ⟨0, _⟩ => show win0_1.index t (0 : Fin 2) * 128 + 1 * k.val = k.val; rw [e2]; omega
  | ⟨1, _⟩ => show win0_1.index t (1 : Fin 2) * 64 + 1 * g.val = g.val; rw [e3]; omega

theorem flushed_eq (c : Dev nD) (t : Fin cfg0.N) :
    (dat0 (F := Ideal) V c).flushed 2 t = ((cfg0.win 2).blk t).view.read (Elt Ideal) (Gh (xarr V c) (warr V c)) := by
  show (cfg0.win 2).cut (grid0.coords t) ((dat0 (F := Ideal) V c).after 2 t) = _
  rw [after0_2]
  unfold out0_2
  rw [View.canon_unit_zero offsets_zero]
  simp only [View.ld_unit_zero (S := S512x128) offsets_zero, View.ld_unit_zero (S := S128x64) offsets_zero]
  obtain ⟨-, -, -, -, e4, e5⟩ := index_facts t
  funext j
  show k0_pay1 (F := Ideal) (iblk0 V c 0 t) (iblk0 V c 1 t) j = Gh (xarr V c) (warr V c) (((cfg0.win 2).blk t).view.emb j)
  refine block_eq_whole (xarr V c) (warr V c) (iblk0 V c 0 t) (iblk0 V c 1 t) t.val
    (fun r k n hn => xblock_apply V c t r k n hn) (fun k g => wblock_apply V c t k g) j (((cfg0.win 2).blk t).view.emb j) ?_ ?_
  · show win0_2.index t (0 : Fin 2) * 512 + 1 * (j 0).val = t.val * 512 + (j 0).val; rw [e4]; omega
  · show win0_2.index t (1 : Fin 2) * 64 + 1 * (j 1).val = (j 1).val; rw [e5]; omega

theorem mem_oblock (t : Fin cfg0.N) (i : S50176x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v4).slice (win0_2.rect t)).set ↔ _
  rw [View.set_slice_whole, Rect.mem_set_unit]
  exact Iff.rfl

theorem covered (i : S50176x64.Idx) : ∃ t : Fin cfg0.N, (cfg0.win 2).flush t = true ∧ i ∈ ((cfg0.win 2).blk t).view.set := by
  have hi0 : (i 0).val < 50176 := (i 0).isLt
  have hi1 : (i 1).val < 64 := (i 1).isLt
  have hN : cfg0.N = 98 := N_0
  obtain ⟨t, ht⟩ : ∃ t : Fin cfg0.N, t.val = (i 0).val / 512 := ⟨⟨(i 0).val / 512, by rw [hN]; omega⟩, rfl⟩
  obtain ⟨-, -, -, -, e4, e5⟩ := index_facts t
  refine ⟨t, flush0_2 t, ?_⟩
  rw [mem_oblock]
  intro a
  match a with
  | ⟨0, _⟩ => show win0_2.index t (0 : Fin 2) * 512 ≤ (i 0).val ∧ (i 0).val < win0_2.index t (0 : Fin 2) * 512 + 512; rw [e4]; omega
  | ⟨1, _⟩ => show win0_2.index t (1 : Fin 2) * 64 ≤ (i 1).val ∧ (i 1).val < win0_2.index t (1 : Fin 2) * 64 + 64; rw [e5]; omega

theorem final0 (c : Dev nD) : (dat0 (F := Ideal) V c).arrAt 2 cfg0.N = Gh (xarr V c) (warr V c) :=
  (dat0 (F := Ideal) V c).arrAt_eq_of_cover 2 (Gh (xarr V c) (warr V c)) (fun t _ => flushed_eq V c t) covered

theorem h_final (c : Dev nD) (n : Fin 50176) (g : Fin 64) :
    oarr V c (ValueIdx.ix2 n g) = ∑ k : Fin 128, xarr V c (ValueIdx.ix2 n k) * warr V c (ValueIdx.ix2 k g) := by
  show (dat0 (F := Ideal) V c).arrAt 2 cfg0.N (ValueIdx.ix2 n g) = _
  rw [final0]
  rfl

end Value0

end Cert.KernelIdeal.Conv.Val0
end
-- ==== Proof.KI.V1a.lean ====
import proofs.«405544_j71923522339430_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv.Val1
open Idealize.ShloMosaic Idealize.ShloMosaic.TcCoe
open Cert.KernelIdeal Cert.KernelIdeal.Gen
open Idealize.ShloMosaic.ValueIdx

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem onehot_word (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · subst h
    rw [if_pos rfl]
    have e : ((IntOp.cmpi .eq a a).setWidth 32).toInt = 1 := by
      simp [IntOp.cmpi]
    rw [e]; simp
  · rw [if_neg h]
    have hb : (a == b) = false := beq_eq_false_iff_ne.mpr h
    have e : ((IntOp.cmpi .eq a b).setWidth 32).toInt = 0 := by
      simp [IntOp.cmpi, hb]
    rw [e]; simp

theorem node_word (nb : ℕ) (q : ℕ) :
    IntOp.addi (Scalar.muli (BitVec.ofNat 32 nb) 512#32) (BitVec.ofNat 32 q) = BitVec.ofNat 32 (nb * 512 + q) := by
  show BitVec.ofNat 32 nb * BitVec.ofNat 32 512 + BitVec.ofNat 32 q = _
  rw [← BitVec.ofNat_mul, ← BitVec.ofNat_add]

theorem src_col_apply (v7 : S8192.Idx → BitVec 32) (h1 : S8192.ShapeCasts S8192) (h2 : S8192.ShapeCasts S8192x1)
    (h3 : S8192x1.Broadcasts S8192x512) (p : Fin 8192) (q : Fin 512) :
    broadcastTo S8192x512 (shapeCast S8192x1 (shapeCast S8192 v7 h1) h2) h3 (ix2 p q) = v7 (ix1 p) := by
  refine (broadcastTo_a1_ab_apply _ h3 p q).trans ?_
  refine (shapeCast_a_a1_apply _ h2 p 0).trans ?_
  exact congrFun (shapeCast_self v7 h1) (ix1 p)

theorem node_row_apply (nb : ℕ) (hI : S1x512.Iotas .tc 32 [1]) (hB : S1x512.Broadcasts S8192x512) (p : Fin 8192) (q : Fin 512) :
    broadcastTo S8192x512 (addi (broadcast S1x512 (Scalar.muli (BitVec.ofNat 32 nb) 512#32)) (iota .tc S1x512 32 [1] hI)) hB (ix2 p q)
      = BitVec.ofNat 32 (nb * 512 + q.val) := by
  refine (broadcastTo_1b_ab_apply _ hB p q).trans ?_
  show IntOp.addi (Scalar.muli (BitVec.ofNat 32 nb) 512#32) (iota .tc S1x512 32 [1] hI (ix2 (0 : Fin 1) q)) = _
  rw [iota_single_apply]
  exact node_word nb q.val

theorem onehot_apply (nb : ℕ) (v7 : S8192.Idx → BitVec 32) (h1 : S8192.ShapeCasts S8192) (h2 : S8192.ShapeCasts S8192x1)
    (h3 : S8192x1.Broadcasts S8192x512) (hI : S1x512.Iotas .tc 32 [1]) (hB : S1x512.Broadcasts S8192x512)
    (hlt : 1 < 32) (hbf : FTy.bits .bf16 < FTy.bits .f32) (p : Fin 8192) (q : Fin 512) :
    (truncf .bf16 (sitofp (F := Ideal) .f32 (extui 32 (cmpi .eq
        (broadcastTo S8192x512 (shapeCast S8192x1 (shapeCast S8192 v7 h1) h2) h3)
        (broadcastTo S8192x512 (addi (broadcast S1x512 (Scalar.muli (BitVec.ofNat 32 nb) 512#32)) (iota .tc S1x512 32 [1] hI)) hB))
      hlt)) hbf : S8192x512.Idx → EReal) (ix2 p q)
      = if v7 (ix1 p) = BitVec.ofNat 32 (nb * 512 + q.val) then 1 else 0 := by
  show FloatOps.sitofp (F := Ideal) .f32 ((IntOp.cmpi .eq
      (broadcastTo S8192x512 (shapeCast S8192x1 (shapeCast S8192 v7 h1) h2) h3 (ix2 p q))
      (broadcastTo S8192x512 (addi (broadcast S1x512 (Scalar.muli (BitVec.ofNat 32 nb) 512#32)) (iota .tc S1x512 32 [1] hI)) hB (ix2 p q))).setWidth 32) = _
  rw [src_col_apply, node_row_apply]
  exact onehot_word _ _

theorem lhs_ax0 (j : S8192x64.Idx) (k : dot_S8192x512_S512x64_S8192x64_1_0_0_1_n_n.contr.Idx) :
    (dot_S8192x512_S512x64_S8192x64_1_0_0_1_n_n.lhsIdx j k 0).val = (j 0).val := by
  unfold DotDims.lhsIdx
  rw [dif_neg (show ¬(0 : Fin S8192x512.rank) ∈ dot_S8192x512_S512x64_S8192x64_1_0_0_1_n_n.lhsBatch by decide),
    dif_pos (show (0 : Fin S8192x512.rank) ∈ dot_S8192x512_S512x64_S8192x64_1_0_0_1_n_n.lhsNonContracting by decide)]
  rfl
theorem lhs_ax1 (j : S8192x64.Idx) (k : dot_S8192x512_S512x64_S8192x64_1_0_0_1_n_n.contr.Idx) :
    (dot_S8192x512_S512x64_S8192x64_1_0_0_1_n_n.lhsIdx j k 1).val = (k ⟨0, by decide⟩).val :=
  dot_S8192x512_S512x64_S8192x64_1_0_0_1_n_n.lhsIdx_val_of_single rfl j k
theorem rhs_ax0 (j : S8192x64.Idx) (k : dot_S8192x512_S512x64_S8192x64_1_0_0_1_n_n.contr.Idx) :
    (dot_S8192x512_S512x64_S8192x64_1_0_0_1_n_n.rhsIdx j k 0).val = (k ⟨0, by decide⟩).val :=
  dot_S8192x512_S512x64_S8192x64_1_0_0_1_n_n.rhsIdx_val_of_single rfl j k
theorem rhs_ax1 (j : S8192x64.Idx) (k : dot_S8192x512_S512x64_S8192x64_1_0_0_1_n_n.contr.Idx) :
    (dot_S8192x512_S512x64_S8192x64_1_0_0_1_n_n.rhsIdx j k 1).val = (j 1).val := by
  unfold DotDims.rhsIdx
  rw [dif_neg (show ¬(1 : Fin S512x64.rank) ∈ dot_S8192x512_S512x64_S8192x64_1_0_0_1_n_n.rhsBatch by decide),
    dif_pos (show (1 : Fin S512x64.rank) ∈ dot_S8192x512_S512x64_S8192x64_1_0_0_1_n_n.rhsNonContracting by decide)]
  rfl

theorem product_apply (L : S8192x512.Idx → EReal) (R : S512x64.Idx → EReal) (p : Fin 8192) (g : Fin 64) :
    (matmul (F := Ideal) (φ₁ := .bf16) (φ₂ := .bf16) dot_S8192x512_S512x64_S8192x64_1_0_0_1_n_n none L R
        (constant (F := Ideal) S8192x64 .f32 0x00000000#32) : S8192x64.Idx → EReal) (ix2 p g)
      = ∑ q : Fin 512, L (ix2 p q) * R (ix2 q g) := by
  refine (Ideal.matmul_constant_zero_apply (φ₁ := .bf16) (φ₂ := .bf16) dot_S8192x512_S512x64_S8192x64_1_0_0_1_n_n none L R (ix2 p g)).trans ?_
  rw [← Equiv.sum_comp (contrEquiv1 dot_S8192x512_S512x64_S8192x64_1_0_0_1_n_n 512 rfl rfl).symm]
  refine Finset.sum_congr rfl fun q _ => ?_
  have hq := contrEquiv1_symm_val dot_S8192x512_S512x64_S8192x64_1_0_0_1_n_n 512 rfl rfl q
  have el : dot_S8192x512_S512x64_S8192x64_1_0_0_1_n_n.lhsIdx (ix2 p g)
      ((contrEquiv1 dot_S8192x512_S512x64_S8192x64_1_0_0_1_n_n 512 rfl rfl).symm q) = ix2 p q :=
    funext fun a => Fin.ext (by
      match a with
      | ⟨0, _⟩ => exact lhs_ax0 _ _
      | ⟨1, _⟩ => exact (lhs_ax1 _ _).trans hq)
  have er : dot_S8192x512_S512x64_S8192x64_1_0_0_1_n_n.rhsIdx (ix2 p g)
      ((contrEquiv1 dot_S8192x512_S512x64_S8192x64_1_0_0_1_n_n 512 rfl rfl).symm q) = ix2 q g :=
    funext fun a => Fin.ext (by
      match a with
      | ⟨0, _⟩ => exact (rhs_ax0 _ _).trans hq
      | ⟨1, _⟩ => exact rhs_ax1 _ _)
  rw [el, er]

theorem pay1_apply (p : Fin 8192) (g : Fin 64) : (k1_pay1 (F := Ideal) : S8192x64.Idx → EReal) (ix2 p g) = 0 := by
  unfold k1_pay1
  refine (congrFun (shapeCast_self _ _) (ix2 p g)).trans ?_
  exact Ideal.ofBits_zero_f32

theorem pay2_apply (i : grid1.Coords) (v7 : S8192.Idx → BitVec 32) (v16 : S512x64.Idx → EReal) (v20 : S8192x64.Idx → EReal)
    (p : Fin 8192) (g : Fin 64) :
    (k1_pay2 (F := Ideal) i v7 v16 v20 : S8192x64.Idx → EReal) (ix2 p g)
      = v20 (ix2 p g) + ∑ q : Fin 512,
          (if v7 (ix1 p) = BitVec.ofNat 32 ((i 1).val * 512 + q.val) then (1 : EReal) else 0) * v16 (ix2 q g) := by
  unfold k1_pay2
  dsimp only
  refine (congrFun (shapeCast_self _ _) (ix2 p g)).trans ?_
  refine (addf_apply _ _ _).trans ?_
  refine congrArg (v20 (ix2 p g) + ·) ?_
  refine (product_apply _ _ p g).trans ?_
  refine Finset.sum_congr rfl fun q _ => ?_
  refine congrArg₂ (· * ·) ?_ ?_
  · exact onehot_apply (i 1).val v7 _ _ _ _ _ _ _ p q
  · exact congrFun (shapeCast_self v16 _) (ix2 q g)

theorem pay3_apply (v28 : S8192x64.Idx → EReal) (v29 : S8192.Idx → EReal) (p : Fin 8192) (g : Fin 64) :
    (k1_pay3 (F := Ideal) v28 v29 : S8192x64.Idx → EReal) (ix2 p g) = v28 (ix2 p g) * v29 (ix1 p) := by
  unfold k1_pay3
  refine (mulf_apply _ _ _).trans ?_
  refine congrArg (v28 (ix2 p g) * ·) ?_
  refine (broadcastTo_a1_ab_apply _ _ p g).trans ?_
  refine (shapeCast_a_a1_apply _ _ p 0).trans ?_
  exact congrFun (shapeCast_self v29 _) (ix1 p)

end Cert.KernelIdeal.Conv.Val1
end
-- ==== Proof.KI.V1.lean ====
import proofs.«405544_j71923522339430_1_alg».proof.Proof.KI.R1
import proofs.«405544_j71923522339430_1_alg».proof.Proof.KI.V1a
import Idealize.ShloMosaic.Lib.Pipeline.Value
import Idealize.ShloMosaic.Lib.ValueIdx

set_option maxRecDepth 16384

noncomputable section

namespace Cert.KernelIdeal.Conv.Val1
open Idealize.ShloMosaic Idealize.ShloMosaic.TcCoe
open Cert.KernelIdeal Cert.KernelIdeal.Gen
open Idealize.ShloMosaic.ValueIdx

theorem coords1_0 (t : Fin grid1.N) : (grid1.coords t 0).val = t.val / 98 := by
  have hN : grid1.N = 9604 := N_1
  have ht := t.isLt
  show t.val / grid1.stride 0 % grid1.bound 0 = _
  rw [show grid1.stride 0 = 98 from by decide, show grid1.bound 0 = 98 from rfl]
  omega

theorem coords1_1 (t : Fin grid1.N) : (grid1.coords t 1).val = t.val % 98 := by
  show t.val / grid1.stride 1 % grid1.bound 1 = _
  rw [show grid1.stride 1 = 1 from by decide, show grid1.bound 1 = 98 from rfl]
  omega

theorem word_toNat_of_lt (n : ℕ) (h : n < 98) : (BitVec.ofNat 32 n).toNat = n := by
  rw [BitVec.toNat_ofNat]; omega

theorem index1_0 (t : Fin cfg1.N) : win1_0.index t 0 = t.val / 98 := by
  have hN : grid1.N = 9604 := N_1
  have ht : t.val < grid1.N := t.isLt
  show (BitVec.ofNat 32 (grid1.coords t 0).val).toNat = _
  rw [coords1_0, word_toNat_of_lt _ (by omega)]

theorem index1_1 (t : Fin cfg1.N) : win1_1.index t 0 = t.val / 98 := by
  have hN : grid1.N = 9604 := N_1
  have ht : t.val < grid1.N := t.isLt
  show (BitVec.ofNat 32 (grid1.coords t 0).val).toNat = _
  rw [coords1_0, word_toNat_of_lt _ (by omega)]

theorem index1_2_0 (t : Fin cfg1.N) : win1_2.index t 0 = t.val % 98 := by
  show (BitVec.ofNat 32 (grid1.coords t 1).val).toNat = _
  rw [coords1_1, word_toNat_of_lt _ (by omega)]

theorem index1_2_1 (t : Fin cfg1.N) : win1_2.index t 1 = 0 := rfl

theorem index1_3_0 (t : Fin cfg1.N) : win1_3.index t 0 = t.val / 98 := by
  have hN : grid1.N = 9604 := N_1
  have ht : t.val < grid1.N := t.isLt
  show (BitVec.ofNat 32 (grid1.coords t 0).val).toNat = _
  rw [coords1_0, word_toNat_of_lt _ (by omega)]

theorem index1_3_1 (t : Fin cfg1.N) : win1_3.index t 1 = 0 := rfl

variable (V : (c : Dev nD) → (b : Ref sig .tc) → Buf (Elt Ideal) ((c : Thread nD τ).loc b))

abbrev srcArr (c : Dev nD) : S802816.Idx → BitVec 32 := V c main_v1

abbrev valArr (c : Dev nD) : S802816.Idx → EReal := V c main_v3

abbrev hArr (c : Dev nD) : S50176x64.Idx → EReal := V c main_v4

abbrev srcBlk (c : Dev nD) (t : Fin cfg1.N) : S8192.Idx → BitVec 32 := iblk1 V c 0 t

abbrev valBlk (c : Dev nD) (t : Fin cfg1.N) : S8192.Idx → EReal := iblk1 V c 1 t

abbrev hBlk (c : Dev nD) (t : Fin cfg1.N) : S512x64.Idx → EReal := iblk1 V c 2 t

abbrev edgeOf (t : Fin cfg1.N) (p : Fin 8192) : Fin 802816 :=
  ⟨t.val / 98 * 8192 + p.val, by have hN : grid1.N = 9604 := N_1; have ht : t.val < grid1.N := t.isLt; have := p.isLt; omega⟩

abbrev nodeOf (t : Fin cfg1.N) (q : Fin 512) : Fin 50176 :=
  ⟨t.val % 98 * 512 + q.val, by have := q.isLt; omega⟩

theorem srcBlk_apply (c : Dev nD) (t : Fin cfg1.N) (p : Fin 8192) :
    srcBlk V c t (ix1 p) = srcArr V c (ix1 (edgeOf t p)) := by
  show ((cfg1.win 0).blk t).view.read (Elt Ideal) (V c (Pipeline.arrRef spec1 0)) (ix1 p) = _
  rw [View.read_apply]
  show V c main_v1 (((cfg1.win 0).blk t).view.emb (ix1 p)) = V c main_v1 (ix1 (edgeOf t p))
  congr 1
  funext a
  apply Fin.ext
  match a with
  | ⟨0, _⟩ => show win1_0.index t 0 * 8192 + 1 * p.val = t.val / 98 * 8192 + p.val; rw [index1_0]; omega

theorem valBlk_apply (c : Dev nD) (t : Fin cfg1.N) (p : Fin 8192) :
    valBlk V c t (ix1 p) = valArr V c (ix1 (edgeOf t p)) := by
  show ((cfg1.win 1).blk t).view.read (Elt Ideal) (V c (Pipeline.arrRef spec1 1)) (ix1 p) = _
  rw [View.read_apply]
  show V c main_v3 (((cfg1.win 1).blk t).view.emb (ix1 p)) = V c main_v3 (ix1 (edgeOf t p))
  congr 1
  funext a
  apply Fin.ext
  match a with
  | ⟨0, _⟩ => show win1_1.index t 0 * 8192 + 1 * p.val = t.val / 98 * 8192 + p.val; rw [index1_1]; omega

theorem hBlk_apply (c : Dev nD) (t : Fin cfg1.N) (q : Fin 512) (g : Fin 64) :
    hBlk V c t (ix2 q g) = hArr V c (ix2 (nodeOf t q) g) := by
  show ((cfg1.win 2).blk t).view.read (Elt Ideal) (V c (Pipeline.arrRef spec1 2)) (ix2 q g) = _
  rw [View.read_apply]
  show V c main_v4 (((cfg1.win 2).blk t).view.emb (ix2 q g)) = V c main_v4 (ix2 (nodeOf t q) g)
  congr 1
  funext a
  apply Fin.ext
  match a with
  | ⟨0, _⟩ => show win1_2.index t 0 * 512 + 1 * q.val = t.val % 98 * 512 + q.val; rw [index1_2_0]; omega
  | ⟨1, _⟩ => show win1_2.index t 1 * 64 + 1 * g.val = g.val; rw [index1_2_1]; omega

/-- A sum over the padded nodes, block by block. -/
theorem sum_nodes {M : Type*} [AddCommMonoid M] (f : Fin 50176 → M) :
    ∑ n : Fin 50176, f n
      = ∑ a : Fin 98, ∑ q : Fin 512, f ⟨a.val * 512 + q.val, by have := a.isLt; have := q.isLt; omega⟩ := by
  rw [← Equiv.sum_comp (finProdFinEquiv (m := 98) (n := 512)) f, Fintype.sum_prod_type]
  refine Finset.sum_congr rfl fun a _ => Finset.sum_congr rfl fun q _ => congrArg f (Fin.ext ?_)
  show q.val + 512 * a.val = a.val * 512 + q.val
  omega

def pick (c : Dev nD) (e : Fin 802816) (g : Fin 64) (n : Fin 50176) : EReal :=
  (if srcArr V c (ix1 e) = BitVec.ofNat 32 n.val then (1 : EReal) else 0) * hArr V c (ix2 n g)

def share (c : Dev nD) (e : Fin 802816) (g : Fin 64) (a : ℕ) : EReal :=
  if h : a < 98 then ∑ q : Fin 512, pick V c e g ⟨a * 512 + q.val, by have := q.isLt; omega⟩ else 0

theorem sum_share (c : Dev nD) (e : Fin 802816) (g : Fin 64) :
    ∑ a ∈ Finset.range 98, share V c e g a = ∑ n : Fin 50176, pick V c e g n := by
  rw [sum_nodes, ← Fin.sum_univ_eq_sum_range (fun a => share V c e g a) 98]
  refine Finset.sum_congr rfl fun a _ => ?_
  unfold share
  rw [dif_pos a.isLt]

theorem addend_eq (c : Dev nD) (t : Fin cfg1.N) (p : Fin 8192) (g : Fin 64) :
    ∑ q : Fin 512, (if srcBlk V c t (ix1 p) = BitVec.ofNat 32 ((grid1.coords t 1).val * 512 + q.val) then (1 : EReal) else 0)
        * hBlk V c t (ix2 q g)
      = share V c (edgeOf t p) g (t.val % 98) := by
  unfold share
  rw [dif_pos (Nat.mod_lt _ (by decide))]
  refine Finset.sum_congr rfl fun q _ => ?_
  rw [srcBlk_apply, hBlk_apply, coords1_1]
  rfl

/-- After the `k`-th node block of a run the accumulator holds the first `k + 1` blocks' shares of the edge's one-hot sum. -/
theorem acc1_eq (c : Dev nD) : ∀ (n : ℕ) (t : Fin cfg1.N), t.val = n → ∀ (p : Fin 8192) (g : Fin 64),
    (acc1 V c t.val t.isLt : S8192x64.Idx → EReal) (ix2 p g)
      = ∑ a ∈ Finset.range (t.val % 98 + 1), share V c (edgeOf t p) g a := by
  intro n
  induction n using Nat.strong_induction_on with
  | _ n ih =>
    intro t htn p g
    by_cases h0 : t.val % 98 = 0
    · refine (congrFun (acc1_first V c t h0) (ix2 p g)).trans ?_
      refine (pay2_apply (grid1.coords t) (srcBlk V c t) (hBlk V c t) (k1_pay1 (F := Ideal)) p g).trans ?_
      rw [pay1_apply, zero_add, addend_eq, h0, Finset.sum_range_one]
    · have hlt : t.val - 1 < cfg1.N := Nat.lt_of_le_of_lt (Nat.sub_le _ _) t.isLt
      refine (congrFun (acc1_next V c t h0) (ix2 p g)).trans ?_
      refine (pay2_apply (grid1.coords t) (srcBlk V c t) (hBlk V c t) (acc1 V c (t.val - 1) hlt) p g).trans ?_
      have hprev := ih (t.val - 1) (by omega) ⟨t.val - 1, hlt⟩ rfl p g
      have he : edgeOf ⟨t.val - 1, hlt⟩ p = edgeOf t p := Fin.ext (by show (t.val - 1) / 98 * 8192 + p.val = t.val / 98 * 8192 + p.val; omega)
      have hm : (t.val - 1) % 98 + 1 = t.val % 98 := by omega
      rw [addend_eq, Finset.sum_range_succ]
      refine congrArg (· + share V c (edgeOf t p) g (t.val % 98)) ?_
      refine hprev.trans ?_
      rw [he]
      exact congrArg (fun k => ∑ a ∈ Finset.range k, share V c (edgeOf t p) g a) hm

def msgAt (c : Dev nD) (e : Fin 802816) (g : Fin 64) : EReal :=
  (∑ n : Fin 50176, pick V c e g n) * valArr V c (ix1 e)

def msgs (c : Dev nD) : S802816x64.Idx → EReal :=
  fun i => msgAt V c ⟨(i 0).val, idx2_lt0 i⟩ ⟨(i 1).val, idx2_lt1 i⟩

theorem msgs_apply (c : Dev nD) (e : Fin 802816) (g : Fin 64) : msgs V c (ix2 e g) = msgAt V c e g := rfl

theorem out_emb (t : Fin cfg1.N) (p : Fin 8192) (g : Fin 64) :
    ((cfg1.win 3).blk t).view.emb (ix2 p g) = (ix2 (edgeOf t p) g : S802816x64.Idx) := by
  funext a
  apply Fin.ext
  match a with
  | ⟨0, _⟩ => show win1_3.index t 0 * 8192 + 1 * p.val = t.val / 98 * 8192 + p.val; rw [index1_3_0]; omega
  | ⟨1, _⟩ => show win1_3.index t 1 * 64 + 1 * g.val = g.val; rw [index1_3_1]; omega

theorem flushed_eq (c : Dev nD) (t : Fin cfg1.N) (hf : (cfg1.win 3).flush t = true) :
    (dat1 V c).flushed 3 t = ((cfg1.win 3).blk t).view.read (Elt Ideal) (msgs V c) := by
  have h97 : t.val % 98 = 97 := (flush1_3 t).mp hf
  show (cfg1.win 3).cut (grid1.coords t) ((dat1 V c).after 3 t) = _
  rw [after1_3_last V c t h97]
  refine funext fun (y : S8192x64.Idx) => ?_
  obtain ⟨p, g, rfl⟩ : ∃ (p : Fin 8192) (g : Fin 64), y = ix2 p g := ⟨y 0, y 1, eq_ix2 y⟩
  rw [View.read_apply]
  show (k1_pay3 (F := Ideal) (acc1 V c t.val t.isLt) (valBlk V c t) : S8192x64.Idx → EReal) (ix2 p g)
    = msgs V c (((cfg1.win 3).blk t).view.emb (ix2 p g))
  rw [out_emb, msgs_apply]
  refine (pay3_apply (acc1 V c t.val t.isLt) (valBlk V c t) p g).trans ?_
  rw [acc1_eq V c t.val t rfl p g, h97, valBlk_apply, sum_share]
  rfl

theorem covered (i : S802816x64.Idx) :
    ∃ t : Fin cfg1.N, (cfg1.win 3).flush t = true ∧ i ∈ ((cfg1.win 3).blk t).view.set := by
  have hN : grid1.N = 9604 := N_1
  have h0 : (i 0).val < 802816 := idx2_lt0 i
  have h1 : (i 1).val < 64 := idx2_lt1 i
  have ht : (i 0).val / 8192 * 98 + 97 < cfg1.N := by show _ < grid1.N; omega
  refine ⟨⟨(i 0).val / 8192 * 98 + 97, ht⟩, (flush1_3 _).mpr (by show ((i 0).val / 8192 * 98 + 97) % 98 = 97; omega), ?_⟩
  show i ∈ ((View.whole main_v5).slice (win1_3.rect ⟨(i 0).val / 8192 * 98 + 97, ht⟩)).set
  rw [View.set_slice_whole, Rect.mem_set_unit]
  intro a
  match a with
  | ⟨0, _⟩ =>
    show win1_3.index ⟨(i 0).val / 8192 * 98 + 97, ht⟩ 0 * 8192 ≤ (i 0).val
      ∧ (i 0).val < win1_3.index ⟨(i 0).val / 8192 * 98 + 97, ht⟩ 0 * 8192 + 8192
    rw [index1_3_0]
    show ((i 0).val / 8192 * 98 + 97) / 98 * 8192 ≤ (i 0).val ∧ (i 0).val < ((i 0).val / 8192 * 98 + 97) / 98 * 8192 + 8192
    omega
  | ⟨1, _⟩ =>
    show win1_3.index ⟨(i 0).val / 8192 * 98 + 97, ht⟩ 1 * 64 ≤ (i 1).val
      ∧ (i 1).val < win1_3.index ⟨(i 0).val / 8192 * 98 + 97, ht⟩ 1 * 64 + 64
    rw [index1_3_1]
    omega

abbrev outArr (c : Dev nD) : S802816x64.Idx → EReal := (dat1 (F := Ideal) V c).arrAt 3 cfg1.N

theorem msgs_final (c : Dev nD) (e : Fin 802816) (g : Fin 64) :
    outArr V c (ix2 e g)
      = (∑ n : Fin 50176, (if srcArr V c (ix1 e) = BitVec.ofNat 32 n.val then (1 : EReal) else 0) * hArr V c (ix2 n g))
          * valArr V c (ix1 e) :=
  congrFun ((dat1 V c).arrAt_eq_of_cover 3 (msgs V c) (fun t hf => flushed_eq V c t hf) covered) (ix2 e g)

end Cert.KernelIdeal.Conv.Val1
end
-- ==== Proof.KI.V2a.lean ====
import proofs.«405544_j71923522339430_1_alg».proof.Proof.KI.V1a
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Conv.Val2
open Idealize.ShloMosaic Idealize.ShloMosaic.TcCoe
open Cert.KernelIdeal Cert.KernelIdeal.Gen
open Idealize.ShloMosaic.ValueIdx

variable {F : FTy → Type} [FloatOps F]

theorem lhs_scatter_0 (i : S512x64.Idx) (k : dot_S8192x512_S8192x64_S512x64_0_0_1_1_n_n.contr.Idx) :
    (dot_S8192x512_S8192x64_S512x64_0_0_1_1_n_n.lhsIdx i k 0).val = (k ⟨0, by decide⟩).val :=
  dot_S8192x512_S8192x64_S512x64_0_0_1_1_n_n.lhsIdx_val_of_single rfl i k

theorem lhs_scatter_1 (i : S512x64.Idx) (k : dot_S8192x512_S8192x64_S512x64_0_0_1_1_n_n.contr.Idx) :
    (dot_S8192x512_S8192x64_S512x64_0_0_1_1_n_n.lhsIdx i k 1).val = (i 0).val := by
  unfold DotDims.lhsIdx
  rw [dif_neg (show ¬(1 : Fin S8192x512.rank) ∈ dot_S8192x512_S8192x64_S512x64_0_0_1_1_n_n.lhsBatch by decide),
    dif_pos (show (1 : Fin S8192x512.rank) ∈ dot_S8192x512_S8192x64_S512x64_0_0_1_1_n_n.lhsNonContracting by decide)]
  rfl

theorem rhs_scatter_0 (i : S512x64.Idx) (k : dot_S8192x512_S8192x64_S512x64_0_0_1_1_n_n.contr.Idx) :
    (dot_S8192x512_S8192x64_S512x64_0_0_1_1_n_n.rhsIdx i k 0).val = (k ⟨0, by decide⟩).val :=
  dot_S8192x512_S8192x64_S512x64_0_0_1_1_n_n.rhsIdx_val_of_single rfl i k

theorem rhs_scatter_1 (i : S512x64.Idx) (k : dot_S8192x512_S8192x64_S512x64_0_0_1_1_n_n.contr.Idx) :
    (dot_S8192x512_S8192x64_S512x64_0_0_1_1_n_n.rhsIdx i k 1).val = (i 1).val := by
  unfold DotDims.rhsIdx
  rw [dif_neg (show ¬(1 : Fin S8192x64.rank) ∈ dot_S8192x512_S8192x64_S512x64_0_0_1_1_n_n.rhsBatch by decide),
    dif_pos (show (1 : Fin S8192x64.rank) ∈ dot_S8192x512_S8192x64_S512x64_0_0_1_1_n_n.rhsNonContracting by decide)]
  rfl

theorem scatter_matmul_apply (A : FVec Ideal S8192x512 .bf16) (B : FVec Ideal S8192x64 .bf16) (q : Fin 512) (g : Fin 64) :
    matmul dot_S8192x512_S8192x64_S512x64_0_0_1_1_n_n none A B (constant (F := Ideal) S512x64 .f32 0x00000000#32) (ix2 q g)
      = ∑ p : Fin 8192, A (ix2 p q) * B (ix2 p g) := by
  show FloatOps.matmul dot_S8192x512_S8192x64_S512x64_0_0_1_1_n_n none A B _ (ix2 q g) = _
  rw [Ideal.matmul_constant_zero_apply,
    ← Equiv.sum_comp (contrEquiv1 dot_S8192x512_S8192x64_S512x64_0_0_1_1_n_n 8192 rfl rfl).symm]
  refine Finset.sum_congr rfl fun p _ => ?_
  have hp := contrEquiv1_symm_val dot_S8192x512_S8192x64_S512x64_0_0_1_1_n_n 8192 rfl rfl p
  have el : dot_S8192x512_S8192x64_S512x64_0_0_1_1_n_n.lhsIdx (ix2 q g)
      ((contrEquiv1 dot_S8192x512_S8192x64_S512x64_0_0_1_1_n_n 8192 rfl rfl).symm p) = ix2 p q :=
    funext fun a => Fin.ext (by
      match a with
      | ⟨0, _⟩ => exact (lhs_scatter_0 _ _).trans hp
      | ⟨1, _⟩ => exact lhs_scatter_1 _ _)
  have er : dot_S8192x512_S8192x64_S512x64_0_0_1_1_n_n.rhsIdx (ix2 q g)
      ((contrEquiv1 dot_S8192x512_S8192x64_S512x64_0_0_1_1_n_n 8192 rfl rfl).symm p) = ix2 p g :=
    funext fun a => Fin.ext (by
      match a with
      | ⟨0, _⟩ => exact (rhs_scatter_0 _ _).trans hp
      | ⟨1, _⟩ => exact rhs_scatter_1 _ _)
  rw [el, er]

theorem pay1_apply (j : S512x64.Idx) : (k2_pay1 (F := Ideal)) j = 0 := by
  unfold k2_pay1
  refine (congrFun (shapeCast_self _ _) j).trans ?_
  exact Ideal.ofBits_zero_f32

theorem pay2_apply (i : grid2.Coords) (v7 : Vec Ideal S8192 .i32) (v16 : Vec Ideal S8192x64 .f32) (v20 : Vec Ideal S512x64 .f32)
    (q : Fin 512) (g : Fin 64) :
    k2_pay2 (F := Ideal) i v7 v16 v20 (ix2 q g)
      = v20 (ix2 q g) + ∑ p : Fin 8192, (if v7 (ix1 p) = BitVec.ofNat 32 ((i 0).val * 512 + q.val) then (1 : EReal) else 0) * v16 (ix2 p g) := by
  unfold k2_pay2
  dsimp only
  refine (congrFun (shapeCast_self _ _) (ix2 q g)).trans ?_
  refine (addf_apply _ _ _).trans ?_
  refine congrArg (v20 (ix2 q g) + ·) ?_
  refine (scatter_matmul_apply _ _ q g).trans ?_
  refine Finset.sum_congr rfl fun p _ => ?_
  refine congrArg₂ (· * ·) ?_ ?_
  · exact Val1.onehot_apply (i 0).val v7 _ _ _ _ _ _ _ p q
  · exact congrFun (shapeCast_self v16 shapeCasts_S8192x64_S8192x64) (ix2 p g)

theorem pay3_apply (v28 : Vec Ideal S512x64 .f32) (v29 : Vec Ideal S64 .f32) (q : Fin 512) (g : Fin 64) :
    k2_pay3 (F := Ideal) v28 v29 (ix2 q g) = v28 (ix2 q g) + v29 (ix1 g) := by
  unfold k2_pay3
  refine (addf_apply _ _ _).trans ?_
  refine congrArg (v28 (ix2 q g) + ·) ?_
  refine (broadcastTo_1b_ab_apply _ broadcasts_S1x64_S512x64 q g).trans ?_
  exact shapeCast_a_1a_apply v29 shapeCasts_S64_S1x64 (0 : Fin 1) g

end Cert.KernelIdeal.Conv.Val2
end
-- ==== Proof.KI.V2b.lean ====
import proofs.«405544_j71923522339430_1_alg».proof.Proof.KI.R2
import Idealize.ShloMosaic.Lib.Pipeline.Value
import Idealize.ShloMosaic.Lib.ValueIdx

set_option maxRecDepth 16384

noncomputable section

namespace Cert.KernelIdeal.Conv.Val2
open Idealize.ShloMosaic Idealize.ShloMosaic.TcCoe
open Cert.KernelIdeal Cert.KernelIdeal.Gen
open Idealize.ShloMosaic.ValueIdx

variable {F : FTy → Type} [FloatOps F]

theorem coords2_0 (t : Fin grid2.N) : (grid2.coords t 0).val = t.val / 98 := by
  have hN : grid2.N = 9604 := N_2
  have hs : grid2.stride 0 = 98 := by decide
  show t.val / grid2.stride 0 % 98 = _
  rw [hs]
  have := t.isLt
  omega

theorem coords2_1 (t : Fin grid2.N) : (grid2.coords t 1).val = t.val % 98 := by
  have hs : grid2.stride 1 = 1 := by decide
  show t.val / grid2.stride 1 % 98 = _
  rw [hs, Nat.div_one]

theorem toNat_ofNat_lt98 (n : Nat) (h : n < 98) : (BitVec.ofNat 32 n).toNat = n := by
  rw [BitVec.toNat_ofNat]
  exact Nat.mod_eq_of_lt (by omega)

theorem index2_0 (t : Fin grid2.N) : win2_0.index t 0 = t.val % 98 := by
  show (BitVec.ofNat 32 (grid2.coords t 1).val).toNat = _
  rw [coords2_1, toNat_ofNat_lt98 _ (Nat.mod_lt _ (by decide))]

theorem index2_1 (t : Fin grid2.N) : win2_1.index t 0 = t.val % 98 ∧ win2_1.index t 1 = 0 := by
  refine ⟨?_, rfl⟩
  show (BitVec.ofNat 32 (grid2.coords t 1).val).toNat = _
  rw [coords2_1, toNat_ofNat_lt98 _ (Nat.mod_lt _ (by decide))]

theorem index2_2 (t : Fin grid2.N) : win2_2.index t 0 = 0 := rfl

theorem index2_3 (t : Fin grid2.N) : win2_3.index t 0 = t.val / 98 ∧ win2_3.index t 1 = 0 := by
  refine ⟨?_, rfl⟩
  show (BitVec.ofNat 32 (grid2.coords t 0).val).toNat = _
  have h : t.val / 98 < 98 := by
    have hN : grid2.N = 9604 := N_2
    have := t.isLt
    omega
  rw [coords2_0, toNat_ofNat_lt98 _ h]

variable (V : (c : Dev nD) → (b : Ref sig .tc) → Buf (Elt F) ((c : Thread nD τ).loc b))

abbrev dstArr (c : Dev nD) : Vec F S802816 .i32 := V c main_v2

abbrev msgArr (c : Dev nD) : Vec F S802816x64 .f32 := V c main_v5

abbrev biasArr (c : Dev nD) : Vec F S64 .f32 := V c main_arg5

abbrev dstBlk (c : Dev nD) (t : Fin cfg2.N) : Vec F S8192 .i32 := iblk2 V c 0 t

abbrev msgBlk (c : Dev nD) (t : Fin cfg2.N) : Vec F S8192x64 .f32 := iblk2 V c 1 t

abbrev biasBlk (c : Dev nD) (t : Fin cfg2.N) : Vec F S64 .f32 := iblk2 V c 2 t

theorem dstBlk_apply (c : Dev nD) (t : Fin cfg2.N) (p : Fin 8192) (h : t.val % 98 * 8192 + p.val < 802816) :
    dstBlk V c t (ix1 p) = dstArr V c (ix1 ⟨t.val % 98 * 8192 + p.val, h⟩) := by
  show ((cfg2.win 0).blk t).view.read (Elt F) (V c (Pipeline.arrRef spec2 0)) (ix1 p) = _
  rw [View.read_apply]
  show V c main_v2 _ = V c main_v2 _
  congr 1
  funext a
  apply Fin.ext
  match a with
  | ⟨0, _⟩ =>
    show win2_0.index t 0 * 8192 + 1 * p.val = t.val % 98 * 8192 + p.val
    rw [index2_0]
    omega

theorem msgBlk_apply (c : Dev nD) (t : Fin cfg2.N) (p : Fin 8192) (g : Fin 64) (h : t.val % 98 * 8192 + p.val < 802816) :
    msgBlk V c t (ix2 p g) = msgArr V c (ix2 ⟨t.val % 98 * 8192 + p.val, h⟩ g) := by
  show ((cfg2.win 1).blk t).view.read (Elt F) (V c (Pipeline.arrRef spec2 1)) (ix2 p g) = _
  rw [View.read_apply]
  show V c main_v5 _ = V c main_v5 _
  congr 1
  funext a
  apply Fin.ext
  match a with
  | ⟨0, _⟩ =>
    show win2_1.index t 0 * 8192 + 1 * p.val = t.val % 98 * 8192 + p.val
    rw [(index2_1 t).1]
    omega
  | ⟨1, _⟩ =>
    show win2_1.index t 1 * 64 + 1 * g.val = g.val
    rw [(index2_1 t).2]
    omega

theorem biasBlk_apply (c : Dev nD) (t : Fin cfg2.N) (g : Fin 64) :
    biasBlk V c t (ix1 g) = biasArr V c (ix1 g) := by
  show ((cfg2.win 2).blk t).view.read (Elt F) (V c (Pipeline.arrRef spec2 2)) (ix1 g) = _
  rw [View.read_apply]
  show V c main_arg5 _ = V c main_arg5 _
  congr 1
  funext a
  apply Fin.ext
  match a with
  | ⟨0, _⟩ =>
    show win2_2.index t 0 * 64 + 1 * g.val = g.val
    rw [index2_2]
    omega

end Cert.KernelIdeal.Conv.Val2
end
-- ==== Proof.KI.V2c.lean ====
import proofs.«405544_j71923522339430_1_alg».proof.Proof.KI.V2a
import proofs.«405544_j71923522339430_1_alg».proof.Proof.KI.V2b

set_option maxRecDepth 16384

noncomputable section

namespace Cert.KernelIdeal.Conv.Val2
open Idealize.ShloMosaic Idealize.ShloMosaic.TcCoe
open Cert.KernelIdeal Cert.KernelIdeal.Gen
open Idealize.ShloMosaic.ValueIdx

variable {F : FTy → Type} [FloatOps F]

variable (V : (c : Dev nD) → (b : Ref sig .tc) → Buf (Elt Ideal) ((c : Thread nD τ).loc b))

def edgeAt (t : Nat) (p : Fin 8192) : Fin 802816 :=
  ⟨t % 98 * 8192 + p.val, by have := Nat.mod_lt t (show 0 < 98 by decide); have := p.isLt; omega⟩

def term (c : Dev nD) (n : Nat) (g : Fin 64) (e : Fin 802816) : EReal :=
  (if dstArr (F := Ideal) V c (ix1 e) = BitVec.ofNat 32 n then (1 : EReal) else 0) * msgArr (F := Ideal) V c (ix2 e g)

def addend (c : Dev nD) (t : Nat) (q : Fin 512) (g : Fin 64) : EReal :=
  ∑ p : Fin 8192, term V c (t / 98 * 512 + q.val) g (edgeAt t p)

theorem step_apply (c : Dev nD) (t : Fin cfg2.N) (acc : Vec Ideal S512x64 .f32) (q : Fin 512) (g : Fin 64) :
    k2_pay2 (F := Ideal) (grid2.coords t) (dstBlk (F := Ideal) V c t) (msgBlk (F := Ideal) V c t) acc (ix2 q g)
      = acc (ix2 q g) + addend V c t.val q g := by
  refine (pay2_apply (grid2.coords t) (dstBlk (F := Ideal) V c t) (msgBlk (F := Ideal) V c t) acc q g).trans ?_
  refine congrArg (acc (ix2 q g) + ·) ?_
  unfold addend term
  refine Finset.sum_congr rfl fun p _ => ?_
  rw [dstBlk_apply V c t p (edgeAt t.val p).isLt, msgBlk_apply V c t p g (edgeAt t.val p).isLt, coords2_0]
  rfl

/-- After the `k`-th edge block of a run the accumulator holds the first `k + 1` blocks' weighted messages into the node. -/
theorem acc2_apply (c : Dev nD) : ∀ (n : ℕ) (h : n < cfg2.N) (q : Fin 512) (g : Fin 64),
    (acc2 (F := Ideal) V c n h : Vec Ideal S512x64 .f32) (ix2 q g)
      = ∑ s ∈ Finset.range (n % 98 + 1), addend V c (n / 98 * 98 + s) q g
  | 0, h, q, g => by
    have e := acc2_first (F := Ideal) V c ⟨0, h⟩ rfl
    refine (congrFun e (ix2 q g)).trans ?_
    refine (step_apply V c ⟨0, h⟩ (k2_pay1 (F := Ideal)) q g).trans ?_
    rw [pay1_apply, zero_add]
    show addend V c 0 q g = ∑ s ∈ Finset.range 1, addend V c (0 + s) q g
    rw [Finset.sum_range_one]
  | n + 1, h, q, g => by
    by_cases h0 : (n + 1) % 98 = 0
    · have e := acc2_first (F := Ideal) V c ⟨n + 1, h⟩ h0
      refine (congrFun e (ix2 q g)).trans ?_
      refine (step_apply V c ⟨n + 1, h⟩ (k2_pay1 (F := Ideal)) q g).trans ?_
      rw [pay1_apply, zero_add, h0, Finset.sum_range_one]
      show addend V c (n + 1) q g = addend V c ((n + 1) / 98 * 98 + 0) q g
      refine congrArg (fun t => addend V c t q g) ?_
      omega
    · have e := acc2_next (F := Ideal) V c ⟨n + 1, h⟩ h0
      refine (congrFun e (ix2 q g)).trans ?_
      refine (step_apply V c ⟨n + 1, h⟩ _ q g).trans ?_
      have ih := acc2_apply c n (Nat.lt_of_succ_lt h) q g
      show (acc2 (F := Ideal) V c n _ : Vec Ideal S512x64 .f32) (ix2 q g) + addend V c (n + 1) q g = _
      rw [ih]
      have hm : (n + 1) % 98 = n % 98 + 1 := by omega
      have hd : (n + 1) / 98 = n / 98 := by omega
      rw [hm, hd, Finset.sum_range_succ _ (n % 98 + 1)]
      refine congrArg (_ + ·) (congrArg (fun t => addend V c t q g) ?_)
      omega

def edgeEquiv : Fin 98 × Fin 8192 ≃ Fin 802816 where
  toFun x := ⟨x.1.val * 8192 + x.2.val, by have := x.1.isLt; have := x.2.isLt; omega⟩
  invFun e := (⟨e.val / 8192, by have := e.isLt; omega⟩, ⟨e.val % 8192, Nat.mod_lt _ (by decide)⟩)
  left_inv x := by
    rcases x with ⟨⟨s, hs⟩, ⟨p, hp⟩⟩
    refine Prod.ext (Fin.ext ?_) (Fin.ext ?_)
    · show (s * 8192 + p) / 8192 = s
      omega
    · show (s * 8192 + p) % 8192 = p
      omega
  right_inv e := by
    apply Fin.ext
    show e.val / 8192 * 8192 + e.val % 8192 = e.val
    omega

theorem run_sum (c : Dev nD) (d : Nat) (q : Fin 512) (g : Fin 64) :
    ∑ s ∈ Finset.range 98, addend V c (d * 98 + s) q g = ∑ e : Fin 802816, term V c (d * 512 + q.val) g e := by
  rw [Finset.sum_range, ← Equiv.sum_comp edgeEquiv, Fintype.sum_prod_type]
  refine Finset.sum_congr rfl fun s _ => ?_
  unfold addend
  have hs := s.isLt
  have hd : (d * 98 + s.val) / 98 = d := by omega
  rw [hd]
  refine Finset.sum_congr rfl fun p _ => ?_
  refine congrArg (term V c (d * 512 + q.val) g) (Fin.ext ?_)
  show (d * 98 + s.val) % 98 * 8192 + p.val = s.val * 8192 + p.val
  have hm : (d * 98 + s.val) % 98 = s.val := by omega
  rw [hm]

end Cert.KernelIdeal.Conv.Val2
end
-- ==== Proof.KI.V2.lean ====
import proofs.«405544_j71923522339430_1_alg».proof.Proof.KI.V2c

set_option maxRecDepth 16384

noncomputable section

namespace Cert.KernelIdeal.Conv.Val2
open Idealize.ShloMosaic Idealize.ShloMosaic.TcCoe
open Cert.KernelIdeal Cert.KernelIdeal.Gen
open Idealize.ShloMosaic.ValueIdx

variable {F : FTy → Type} [FloatOps F]

variable (V : (c : Dev nD) → (b : Ref sig .tc) → Buf (Elt Ideal) ((c : Thread nD τ).loc b))

def agg (c : Dev nD) : S50176x64.Idx → EReal := fun i =>
  (∑ e : Fin 802816, term V c (i 0).val (i 1) e) + biasArr (F := Ideal) V c (ix1 (i 1))

theorem agg_apply (c : Dev nD) (n : Fin 50176) (g : Fin 64) :
    agg V c (ix2 n g) = (∑ e : Fin 802816, term V c n.val g e) + biasArr (F := Ideal) V c (ix1 g) := rfl

def nodeOf (t : Fin cfg2.N) (q : Fin 512) : Fin 50176 :=
  ⟨t.val / 98 * 512 + q.val, by
    have hN : cfg2.N = 9604 := N_2
    have := t.isLt
    have := q.isLt
    omega⟩

theorem out_emb (t : Fin cfg2.N) (q : Fin 512) (g : Fin 64) :
    ((cfg2.win 3).blk t).view.emb (ix2 q g) = (ix2 (nodeOf t q) g : S50176x64.Idx) := by
  funext a
  apply Fin.ext
  match a with
  | ⟨0, _⟩ =>
    show win2_3.index t 0 * 512 + 1 * q.val = t.val / 98 * 512 + q.val
    rw [(index2_3 t).1]
    omega
  | ⟨1, _⟩ =>
    show win2_3.index t 1 * 64 + 1 * g.val = g.val
    rw [(index2_3 t).2]
    omega

theorem out_entry (X : Vec Ideal S512x64 .f32) (b : Vec Ideal S64 .f32) (q : Fin 512) (g : Fin 64) (s β : EReal)
    (hX : X (ix2 q g) = s) (hb : b (ix1 g) = β) :
    (k2_pay3 (F := Ideal) X b : S512x64.Idx → EReal) (ix2 q g) = s + β := by
  refine (pay3_apply X b q g).trans ?_
  rw [hX, hb]

theorem cut3_apply (t : Fin cfg2.N) (X : Vec Ideal S512x64 .f32) (q : Fin 512) (g : Fin 64) :
    ((cfg2.win 3).cut (grid2.coords t) X : S512x64.Idx → EReal) (ix2 q g) = X (ix2 q g) := rfl

theorem flushed_of_entries (c : Dev nD) (t : Fin cfg2.N) (X : Vec Ideal S512x64 .f32)
    (hX : ∀ (q : Fin 512) (g : Fin 64), X (ix2 q g) = agg V c (ix2 (nodeOf t q) g)) :
    (cfg2.win 3).cut (grid2.coords t) X = ((cfg2.win 3).blk t).view.read (Elt Ideal) (agg V c) := by
  refine funext fun (j : S512x64.Idx) => ?_
  obtain ⟨q, g, rfl⟩ : ∃ (q : Fin 512) (g : Fin 64), j = ix2 q g := ⟨j 0, j 1, eq_ix2 j⟩
  rw [View.read_apply, out_emb, cast_eq]
  exact (cut3_apply t X q g).trans (hX q g)

theorem last_entry (c : Dev nD) (t : Fin cfg2.N) (h97 : t.val % 98 = 97) (q : Fin 512) (g : Fin 64) :
    (k2_pay3 (F := Ideal) (acc2 (F := Ideal) V c t.val t.isLt) (biasBlk (F := Ideal) V c t) : S512x64.Idx → EReal) (ix2 q g)
      = agg V c (ix2 (nodeOf t q) g) := by
  rw [agg_apply]
  refine (out_entry (acc2 (F := Ideal) V c t.val t.isLt) (biasBlk (F := Ideal) V c t) q g _ _
    (acc2_apply V c t.val t.isLt q g) (biasBlk_apply V c t g)).trans ?_
  rw [h97]
  exact congrArg (· + biasArr (F := Ideal) V c (ix1 g)) (run_sum V c (t.val / 98) q g)

theorem flushed_eq (c : Dev nD) (t : Fin cfg2.N) (hf : (cfg2.win 3).flush t = true) :
    (dat2 (F := Ideal) V c).flushed 3 t = ((cfg2.win 3).blk t).view.read (Elt Ideal) (agg V c) := by
  have h97 : t.val % 98 = 97 := (flush2_3 t).mp hf
  show (cfg2.win 3).cut (grid2.coords t) ((dat2 (F := Ideal) V c).after 3 t) = _
  rw [after2_3_last V c t h97]
  exact flushed_of_entries V c t (k2_pay3 (F := Ideal) (acc2 (F := Ideal) V c t.val t.isLt) (iblk2 V c 2 t))
    (last_entry V c t h97)

theorem mem_blk3 (t : Fin cfg2.N) (i : S50176x64.Idx) :
    i ∈ ((cfg2.win 3).blk t).view.set ↔ ∀ a : Fin 2, win2_3.index t a * S512x64.size a ≤ (i a).val
      ∧ (i a).val < win2_3.index t a * S512x64.size a + S512x64.size a := by
  show i ∈ ((View.whole main_v6).slice (win2_3.rect t)).set ↔ _
  rw [View.set_slice_whole, Rect.mem_set_unit]
  exact Iff.rfl

theorem cover3 (i : S50176x64.Idx) :
    ∃ t : Fin cfg2.N, (cfg2.win 3).flush t = true ∧ i ∈ ((cfg2.win 3).blk t).view.set := by
  have hi0 : (i 0).val < 50176 := (i 0).isLt
  have hi1 : (i 1).val < 64 := (i 1).isLt
  have hN : cfg2.N = 9604 := N_2
  have ht : (i 0).val / 512 * 98 + 97 < cfg2.N := by rw [hN]; omega
  refine ⟨⟨(i 0).val / 512 * 98 + 97, ht⟩, (flush2_3 _).mpr (by show ((i 0).val / 512 * 98 + 97) % 98 = 97; omega), ?_⟩
  rw [mem_blk3]
  intro a
  match a with
  | ⟨0, _⟩ =>
    show win2_3.index ⟨(i 0).val / 512 * 98 + 97, ht⟩ 0 * 512 ≤ (i 0).val
      ∧ (i 0).val < win2_3.index ⟨(i 0).val / 512 * 98 + 97, ht⟩ 0 * 512 + 512
    rw [(index2_3 _).1]
    show ((i 0).val / 512 * 98 + 97) / 98 * 512 ≤ (i 0).val ∧ (i 0).val < ((i 0).val / 512 * 98 + 97) / 98 * 512 + 512
    omega
  | ⟨1, _⟩ =>
    show win2_3.index ⟨(i 0).val / 512 * 98 + 97, ht⟩ 1 * 64 ≤ (i 1).val
      ∧ (i 1).val < win2_3.index ⟨(i 0).val / 512 * 98 + 97, ht⟩ 1 * 64 + 64
    rw [(index2_3 _).2]
    omega

abbrev aggArr (c : Dev nD) : S50176x64.Idx → EReal := (dat2 (F := Ideal) V c).arrAt 3 cfg2.N

theorem term_apply (c : Dev nD) (n : Nat) (g : Fin 64) (e : Fin 802816) :
    term V c n g e
      = (if dstArr V c (ix1 e) = BitVec.ofNat 32 n then (1 : EReal) else 0) * msgArr V c (ix2 e g) := rfl

/-- Every node's entry after the region: the weighted messages of all padded edges, plus the bias. -/
theorem agg_final (c : Dev nD) (n : Fin 50176) (g : Fin 64) :
    aggArr V c (ix2 n g)
      = (∑ e : Fin 802816, (if dstArr V c (ix1 e) = BitVec.ofNat 32 n.val then (1 : EReal) else 0) * msgArr V c (ix2 e g))
        + biasArr V c (ix1 g) := by
  refine (congrFun ((dat2 (F := Ideal) V c).arrAt_eq_of_cover 3 (agg V c) (fun t hf => flushed_eq V c t hf) cover3)
    (ix2 n g)).trans ?_
  rw [agg_apply]
  refine congrArg (· + biasArr V c (ix1 g)) ?_
  exact Finset.sum_congr rfl fun e _ => term_apply V c n.val g e

end Cert.KernelIdeal.Conv.Val2
end
-- ==== Proof.Math.lean ====
import proofs.«405544_j71923522339430_1_alg».proof.Proof.SpecPad
import Mathlib.Algebra.BigOperators.Fin
import Mathlib.Algebra.BigOperators.Group.Finset.Basic

noncomputable section

open scoped BigOperators

namespace Cert.Spec

open Idealize.ShloMosaic Idealize.ShloMosaic.ValueIdx

theorem ofNat_eq_iff_toNat (w : BitVec 32) (n : ℕ) (hn : n < 2 ^ 32) : w = BitVec.ofNat 32 n ↔ w.toNat = n := by
  rw [← BitVec.toNat_inj, BitVec.toNat_ofNat, Nat.mod_eq_of_lt hn]

theorem ofNat_eq_iff_toInt (w : BitVec 32) (n : ℕ) (hn : n < 2 ^ 31) :
    w = BitVec.ofNat 32 n ↔ w.toInt = (n : Int) := by
  rw [ofNat_eq_iff_toNat w n (by omega), BitVec.toInt_eq_toNat_cond]
  have := w.isLt
  split <;> omega

theorem toNat_lt_of_toInt (w : BitVec 32) (h0 : 0 ≤ w.toInt) (h1 : w.toInt < 50000) : w.toNat < 50000 := by
  rw [BitVec.toInt_eq_toNat_cond] at h0 h1
  have := w.isLt
  split at h0 <;> omega

theorem onehot_self (w : BitVec 32) : onehot w w.toNat = 1 := by
  unfold onehot
  rw [if_pos]
  exact (ofNat_eq_iff_toNat w w.toNat w.isLt).2 rfl

theorem onehot_ne (w : BitVec 32) (n : ℕ) (hn : n < 2 ^ 32) (h : n ≠ w.toNat) : onehot w n = 0 := by
  unfold onehot
  rw [if_neg]
  intro hw
  exact h ((ofNat_eq_iff_toNat w n hn).1 hw).symm

/-- A sum against a 0/1 weight that is one at exactly one node is that node's term. -/
theorem sum_onehot_proj (x : SX.Idx → EReal) (W : SW.Idx → EReal) (w : BitVec 32) (hw : w.toNat < 50176)
    (g : Fin 64) : (∑ n : Fin 50176, onehot w n.val * proj x W n.val g) = proj x W w.toNat g := by
  rw [Finset.sum_eq_single (⟨w.toNat, hw⟩ : Fin 50176)]
  · show onehot w w.toNat * proj x W w.toNat g = _
    rw [onehot_self, one_mul]
  · intro n _ hne
    rw [onehot_ne w n.val (by have := n.isLt; omega) (fun h => hne (Fin.ext h)), zero_mul]
  · intro h
    exact absurd (Finset.mem_univ _) h

theorem msgK_pad (x : SX.Idx → EReal) (src : SE.Idx → BitVec 32) (vals : SE.Idx → EReal) (W : SW.Idx → EReal)
    (e : Fin 802816) (he : ¬ e.val < 800000) (g : Fin 64) : msgK x src vals W e g = 0 := by
  unfold msgK padR
  rw [dif_neg he, mul_zero]

theorem msgK_real (x : SX.Idx → EReal) (src : SE.Idx → BitVec 32) (vals : SE.Idx → EReal) (W : SW.Idx → EReal)
    (hsrc : SrcInRange src) (e : Fin 802816) (he : e.val < 800000) (g : Fin 64) :
    msgK x src vals W e g = msg x src vals W ⟨e.val, he⟩ g := by
  have hr := hsrc ⟨e.val, he⟩
  have hlt : (src (ix1 ⟨e.val, he⟩)).toNat < 50176 :=
    lt_trans (toNat_lt_of_toInt _ hr.1 hr.2) (by norm_num)
  unfold msgK msg padR padW
  rw [dif_pos he, dif_pos he, sum_onehot_proj x W _ hlt g, mul_comm]

theorem sum_fin_add_of_zero {M : Type*} [AddCommMonoid M] (m k : ℕ) (f : Fin (m + k) → M)
    (hz : ∀ e : Fin (m + k), ¬ e.val < m → f e = 0) :
    (∑ e : Fin (m + k), f e) = ∑ e : Fin m, f (Fin.castAdd k e) := by
  have h2 : (∑ j : Fin k, f (Fin.natAdd m j)) = 0 := Finset.sum_eq_zero (fun j _ => hz _ (by simp))
  rw [Fin.sum_univ_add, h2, add_zero]

theorem onehot_mul_eq_ite (w : BitVec 32) (i : ℕ) (hi : i < 50000) (m : EReal) :
    onehot w i * m = if w.toInt = (i : Int) then m else 0 := by
  unfold onehot
  by_cases h : w = BitVec.ofNat 32 i
  · rw [if_pos h, if_pos ((ofNat_eq_iff_toInt w i (by omega)).1 h), one_mul]
  · rw [if_neg h, if_neg (fun h' => h ((ofNat_eq_iff_toInt w i (by omega)).2 h')), zero_mul]

/-- Padded edges carry zero messages, and the 0/1 weight on the destination word keeps exactly the edges into `i`. -/
theorem aggK_eq_G (x : SX.Idx → EReal) (src dst : SE.Idx → BitVec 32) (vals : SE.Idx → EReal) (W : SW.Idx → EReal)
    (b : SB.Idx → EReal) (hsrc : SrcInRange src)
    (i : Fin 50000) (g : Fin 64) :
    aggK x src dst vals W b ⟨i.val, by omega⟩ g = G x src dst vals W b i g := by
  have hs : (∑ e : Fin 802816, onehot (padW dst e) i.val * msgK x src vals W e g)
      = ∑ e ∈ Finset.univ.filter (fun e : Fin 800000 => (dst (ix1 e)).toInt = (i.val : Int)),
          msg x src vals W e g := by
    have hsplit := sum_fin_add_of_zero 800000 2816
      (fun e : Fin 802816 => onehot (padW dst e) i.val * msgK x src vals W e g)
      (fun e he => by
        show onehot (padW dst e) i.val * msgK x src vals W e g = 0
        rw [msgK_pad x src vals W e he g, mul_zero])
    refine hsplit.trans ?_
    rw [Finset.sum_filter]
    refine Finset.sum_congr rfl fun e _ => ?_
    have he : (Fin.castAdd 2816 e : Fin 802816).val < 800000 := e.isLt
    show onehot (padW dst (Fin.castAdd 2816 e)) i.val * msgK x src vals W (Fin.castAdd 2816 e) g = _
    rw [msgK_real x src vals W hsrc _ he g]
    have hp : padW dst (Fin.castAdd 2816 e) = dst (ix1 e) := by
      unfold padW
      rw [dif_pos he]
      rfl
    rw [hp]
    exact onehot_mul_eq_ite (dst (ix1 e)) i.val i.isLt _
  exact congrArg (fun s : EReal => s + b (ix1 g)) hs

end Cert.Spec

end
-- ==== Proof.KI.Final.lean ====
import proofs.«405544_j71923522339430_1_alg».proof.Proof.KI.HostRead
import proofs.«405544_j71923522339430_1_alg».proof.Proof.KI.V0
import proofs.«405544_j71923522339430_1_alg».proof.Proof.KI.V1
import proofs.«405544_j71923522339430_1_alg».proof.Proof.KI.V2
import proofs.«405544_j71923522339430_1_alg».proof.Proof.Math

set_option maxRecDepth 16384

noncomputable section

namespace Cert.KernelIdeal.Conv

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

theorem hArr_apply (c : Dev nD) (n : Fin 50176) (g : Fin 64) :
    Val1.hArr (V9 m) c (ix2 n g) = Cert.Spec.proj (aX m c) (aW m c) n.val g := by
  have e1 : Val1.hArr (V9 m) c = Val0.oarr (V8 m) c := W9_arr m c 2
  rw [e1, Val0.h_final]
  unfold Cert.Spec.proj
  refine Finset.sum_congr rfl fun k _ => ?_
  have e2 : Val0.xarr (V8 m) c (ix2 n k) = Cert.Spec.xrow (aX m c) n.val k := pX_apply m c n k
  have e3 : Val0.warr (V8 m) c = aW m c := W8_arg4 m c
  rw [e2, e3]

theorem outArr_apply (c : Dev nD) (e : Fin 802816) (g : Fin 64) :
    Val1.outArr (V9 m) c (ix2 e g) = Cert.Spec.msgK (aX m c) (aSrc m c) (aVal m c) (aW m c) e g := by
  rw [Val1.msgs_final]
  have es : Val1.srcArr (V9 m) c (ix1 e) = Cert.Spec.padW (aSrc m c) e :=
    (congrFun (W9_of_ne m c main_v1 (by decide)) (ix1 e)).trans (pSrc_apply m c e)
  have ev : Val1.valArr (V9 m) c (ix1 e) = Cert.Spec.padR (aVal m c) e :=
    (congrFun (W9_of_ne m c main_v3 (by decide)) (ix1 e)).trans (pVal_apply m c e)
  rw [es, ev]
  unfold Cert.Spec.msgK
  refine congrArg (· * Cert.Spec.padR (aVal m c) e) ?_
  refine Finset.sum_congr rfl fun n _ => ?_
  rw [hArr_apply]
  rfl

theorem aggArr_apply (c : Dev nD) (n : Fin 50176) (g : Fin 64) :
    Val2.aggArr (V10 m) c (ix2 n g)
      = Cert.Spec.aggK (aX m c) (aSrc m c) (aDst m c) (aVal m c) (aW m c) (aB m c) n g := by
  rw [Val2.agg_final]
  have eb : Val2.biasArr (V10 m) c = aB m c :=
    (W10_of_ne m c main_arg5 (by decide)).trans <| (W9_of_ne m c main_arg5 (by decide)).trans (W8_arg5 m c)
  have em : Val2.msgArr (V10 m) c = Val1.outArr (V9 m) c := W10_arr m c 3
  rw [eb, em]
  unfold Cert.Spec.aggK
  refine congrArg (· + aB m c (ix1 g)) ?_
  refine Finset.sum_congr rfl fun e _ => ?_
  have ed : Val2.dstArr (V10 m) c (ix1 e) = Cert.Spec.padW (aDst m c) e :=
    (congrFun ((W10_of_ne m c main_v2 (by decide)).trans (W9_of_ne m c main_v2 (by decide))) (ix1 e)).trans (pDst_apply m c e)
  rw [ed, outArr_apply]
  rfl

/-- The three stages composed: the sliced result is the specification of the six arguments. -/
theorem result_eq_G (c : Dev nD) (hsrc : Cert.Spec.SrcInRange (aSrc m c))
    (i : Fin 50000) (g : Fin 64) :
    (W12 m c main_v7 : S50000x64.Idx → EReal) (ix2 i g)
      = Cert.Spec.G (aX m c) (aSrc m c) (aDst m c) (aVal m c) (aW m c) (aB m c) i g := by
  rw [res_apply]
  have e1 : (W11 m c main_v6 : S50176x64.Idx → EReal) = Val2.aggArr (V10 m) c := W11_arr m c 3
  rw [e1, aggArr_apply]
  exact Cert.Spec.aggK_eq_G _ _ _ _ _ _ hsrc i g

end Cert.KernelIdeal.Conv

end
-- ==== Proof.LibGatherScatter.lean ====
import Idealize.ShloMosaic.PureOps.Ideal
import Idealize.ShloMosaic.Lib.ValueIdx

noncomputable section

open scoped BigOperators

namespace Idealize.ShloMosaic.GatherScatter

open Idealize.ShloMosaic Idealize.ShloMosaic.ValueIdx

section General
variable {s si u : Shape}

theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

theorem mem_kept {axes : List (Fin s.rank)} {a : Fin s.rank} (h : a ∉ axes) : a ∈ s.kept axes :=
  List.mem_filter.mpr ⟨List.mem_finRange a, by simpa using h⟩

/-- An update lands on `i` exactly when, axis by axis, its window start plus its window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

theorem operandIdx_val (d : GatherDims s si t) {w : Nat} (j : t.Idx) (idx : IVec si w) (a : Fin s.rank) :
    (d.operandIdx j idx a).val = d.start j idx a + d.batchCoord j a + d.offCoord j a := rfl

theorem batchCoord_of_nil (d : GatherDims s si t) (h : d.operandBatchingDims = []) (j : t.Idx) (a : Fin s.rank) :
    d.batchCoord j a = 0 :=
  d.batchCoord_eq_zero j a (by rw [h]; exact List.not_mem_nil)

theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

section RowScatter

abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

theorem rowScatter_window0 (j : (⟨2, ![M, C]⟩ : Shape).Idx) : (rowScatterDims N C M wf).window j 0 = 0 := by
  unfold ScatterDims.window
  rw [dif_neg (not_mem_kept (List.mem_singleton.mpr rfl))]

theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

section RowGather
variable {α : Type}

abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- Rows gathered by a column of indices, read at `(j, f)`: column `f` of the row at the index, read signed and clamped. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

section Sums

variable {φ : FTy}

/-- Rows accumulated into a matrix, read at `(i, g)`: the operand's entry plus column `g` of the rows whose index is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.Ref.lean ====
import proofs.«405544_j71923522339430_1_alg».proof.Defs
import proofs.«405544_j71923522339430_1_alg».proof.Proof.Gen.ReferenceIdeal.Run
import proofs.«405544_j71923522339430_1_alg».proof.Proof.Gen.ReferenceIdeal.Read
import proofs.«405544_j71923522339430_1_alg».proof.Proof.LibGatherScatter
import proofs.«405544_j71923522339430_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Idealize.ShloMosaic.GatherScatter

theorem word_in_range (w : BitVec 32) (h0 : 0 ≤ w.toInt) (h1 : w.toInt < 50000) :
    w.toInt = (w.toNat : Int) ∧ w.toNat < 50000 := by
  have hlt := w.isLt
  rw [BitVec.toInt_eq_toNat_cond] at h0 h1 ⊢
  split_ifs at h0 h1 ⊢ with hc <;> omega

theorem slt_zero_of_nonneg (w : BitVec 32) (h0 : 0 ≤ w.toInt) : IntOp.cmpi .slt w 0#32 = 0#1 := by
  have hs : w.slt 0#32 = false := by
    simp only [BitVec.slt, BitVec.toInt_zero]
    exact decide_eq_false (by omega)
  show BitVec.ofBool (w.slt 0#32) = 0#1
  rw [hs]
  rfl

theorem idx_bias (i : Fin 50000) (g : Fin 64) : idx_main_v14 (idx_main_v15 (ix2 i g)) = ix1 g :=
  funext fun a => Fin.ext (by match a with | ⟨0, _⟩ => rfl)

theorem idx_dst (e : Fin 800000) : idx_main_v12 (ix2 e (0 : Fin 1)) = ix1 e :=
  funext fun a => Fin.ext (by match a with | ⟨0, _⟩ => rfl)

theorem idx_src (e : Fin 800000) : idx_main_v7 (ix2 e (0 : Fin 1)) = ix1 e :=
  funext fun a => Fin.ext (by match a with | ⟨0, _⟩ => rfl)

theorem idx_vals (e : Fin 800000) (g : Fin 64) : idx_main_v1 (idx_main_v9 (ix2 e g)) = ix1 e :=
  funext fun a => Fin.ext (by match a with | ⟨0, _⟩ => rfl)

theorem idx_lhs (r : Fin 50000) (g : Fin 64) (k : Fin 128) : lidx_main_v0 (ix2 r g) k = ix2 r k :=
  funext fun a => Fin.ext (by match a with | ⟨0, _⟩ => rfl | ⟨1, _⟩ => rfl)

theorem idx_rhs (r : Fin 50000) (g : Fin 64) (k : Fin 128) : ridx_main_v0 (ix2 r g) k = ix2 k g :=
  funext fun a => Fin.ext (by match a with | ⟨0, _⟩ => rfl | ⟨1, _⟩ => rfl)

section Stages
variable (x0 : (⟨S50000x128, .f32⟩ : BufTy).Contents (Elt Ideal)) (x1 x2 : (⟨S800000, .i32⟩ : BufTy).Contents (Elt Ideal))
  (x3 : (⟨S800000, .f32⟩ : BufTy).Contents (Elt Ideal)) (x4 : (⟨S128x64, .f32⟩ : BufTy).Contents (Elt Ideal))
  (x5 : (⟨S64, .f32⟩ : BufTy).Contents (Elt Ideal))

theorem zero_operand (i : S50000x64.Idx) : val_main_v11 (F := Ideal) i = 0 := by
  rw [val_main_v11_apply, val_main_cst_apply, Ideal.ofBits_def, Ideal.ofBits_zero_f32]

theorem bias_at (i : Fin 50000) (g : Fin 64) : val_main_v15 (F := Ideal) x5 (ix2 i g) = x5 (ix1 g) := by
  rw [val_main_v15_apply, val_main_v14_apply, idx_bias]

theorem dst_at (e : Fin 800000) : val_main_v12 (F := Ideal) x2 (ix2 e (0 : Fin 1)) = x2 (ix1 e) := by
  rw [val_main_v12_apply, idx_dst]

theorem src_at (hsrc : Cert.Spec.SrcInRange x1) (e : Fin 800000) :
    val_main_v7 (F := Ideal) x1 (ix2 e (0 : Fin 1)) = x1 (ix1 e) := by
  rw [val_main_v7_apply, idx_src, val_main_v6_apply, val_main_v3_apply, val_main_v2_apply, val_main_c_apply,
    slt_zero_of_nonneg _ (hsrc e).1, select_zero]

/-- A source word in range is its own clamp, so the gathered row is the projection of the node it names. -/
theorem gathered_at (hsrc : Cert.Spec.SrcInRange x1) (e : Fin 800000) (g : Fin 64) :
    val_main_v8 (F := Ideal) x0 x1 x4 (ix2 e g) = Cert.Spec.proj x0 x4 (x1 (ix1 e)).toNat g := by
  obtain ⟨hint, hlt⟩ := word_in_range (x1 (ix1 e)) (hsrc e).1 (hsrc e).2
  have hrow : ∀ hp : min (val_main_v7 (F := Ideal) x1 (ix2 e (0 : Fin 1))).toInt.toNat (50000 - 1) < 50000,
      (⟨min (val_main_v7 (F := Ideal) x1 (ix2 e (0 : Fin 1))).toInt.toNat (50000 - 1), hp⟩ : Fin 50000)
        = ⟨(x1 (ix1 e)).toNat, hlt⟩ := by
    intro hp
    apply Fin.ext
    show min (val_main_v7 (F := Ideal) x1 (ix2 e (0 : Fin 1))).toInt.toNat (50000 - 1) = (x1 (ix1 e)).toNat
    rw [src_at x1 hsrc e, hint, Int.toNat_natCast]
    omega
  refine (rowGather_apply (α := EReal) (N := 50000) (C := 64) (M := 800000) (w := 32) (by decide)
    gather_S50000x64_S800000x1_S800000x64_1_0_n_n_0_1_164_wf (val_main_v0 (F := Ideal) x0 x4)
    (val_main_v7 (F := Ideal) x1) e g).trans ?_
  refine (congrArg (fun r : Fin 50000 => val_main_v0 (F := Ideal) x0 x4 (ix2 r g)) (hrow _)).trans ?_
  show val_main_v0 (F := Ideal) x0 x4 (ix2 ⟨(x1 (ix1 e)).toNat, hlt⟩ g) = _
  rw [val_main_v0_apply]
  unfold Cert.Spec.proj Cert.Spec.xrow
  refine Finset.sum_congr rfl fun k _ => ?_
  rw [dif_pos hlt, idx_lhs, idx_rhs]

theorem msg_at (hsrc : Cert.Spec.SrcInRange x1) (e : Fin 800000) (g : Fin 64) :
    val_main_v10 (F := Ideal) x0 x1 x3 x4 (ix2 e g) = Cert.Spec.msg x0 x1 x3 x4 e g := by
  rw [val_main_v10_apply, Ideal.mulf_def, val_main_v9_apply, val_main_v1_apply, idx_vals, gathered_at x0 x1 x4 hsrc e g]
  rfl

theorem agg_at (hsrc : Cert.Spec.SrcInRange x1) (i : Fin 50000) (g : Fin 64) :
    val_main_v13 (F := Ideal) x0 x1 x2 x3 x4 (ix2 i g)
      = ∑ e ∈ Finset.univ.filter (fun e : Fin 800000 => (x2 (ix1 e)).toInt = (i.val : Int)),
          Cert.Spec.msg x0 x1 x3 x4 e g := by
  refine (rowScatterAdd_apply (φ := .f32) (N := 50000) (C := 64) (M := 800000) (w := 32)
    scatter_S50000x64_S800000x1_S800000x64_1_0_0_1_wf (val_main_v11 (F := Ideal)) (val_main_v12 (F := Ideal) x2)
    (val_main_v10 (F := Ideal) x0 x1 x3 x4) i g).trans ?_
  rw [zero_operand, zero_add]
  refine Finset.sum_congr (Finset.filter_congr fun e _ => by rw [dst_at x2 e]) fun e _ => ?_
  exact msg_at x0 x1 x3 x4 hsrc e g

end Stages

/-- The reference's last stage, index by index, is the specification. -/
theorem ref_eq_G (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x64, .f32⟩ : BufTy).Contents (Elt Ideal))
    (x5 : (⟨S64, .f32⟩ : BufTy).Contents (Elt Ideal))
    (hsrc : Cert.Spec.SrcInRange x1) (i : Fin 50000) (g : Fin 64) :
    val_main_v16 (F := Ideal) x0 x1 x2 x3 x4 x5 (ix2 i g) = Cert.Spec.G x0 x1 x2 x3 x4 x5 i g := by
  rw [val_main_v16_apply, Ideal.addf_def, agg_at x0 x1 x2 x3 x4 hsrc i g, bias_at x5 i g]
  rfl

theorem run_term_eq_G (x0 : (⟨S50000x128, .f32⟩ : BufTy).Contents (Elt Ideal)) (x1 x2 : (⟨S800000, .i32⟩ : BufTy).Contents (Elt Ideal))
    (x3 : (⟨S800000, .f32⟩ : BufTy).Contents (Elt Ideal)) (x4 : (⟨S128x64, .f32⟩ : BufTy).Contents (Elt Ideal))
    (x5 : (⟨S64, .f32⟩ : BufTy).Contents (Elt Ideal))
    (hsrc : Cert.Spec.SrcInRange x1) (i : Fin 50000) (g : Fin 64) :
    (addf (F := Ideal) (Host.scatterAdd (F := Ideal) scatter_S50000x64_S800000x1_S800000x64_1_0_0_1 (broadcastInDim S50000x64 ![] bcast_S_S50000x64 (constant (F := Ideal) S_ .f32 0x00000000#32)) (broadcastInDim S800000x1 ![0] bcast_S800000_S800000x1_0 (x2)) (mulf (F := Ideal) (broadcastInDim S800000x64 ![0, 1] bcast_S800000x1_S800000x64_0_1 (broadcastInDim S800000x1 ![0] bcast_S800000_S800000x1_0 (x3))) (Host.gather gather_S50000x64_S800000x1_S800000x64_1_0_n_n_0_1_164 (Host.dotGeneral (F := Ideal) (φ₁ := .f32) (φ₂ := .f32) dot_S50000x128_S128x64_S50000x64_1_0_0_1_n_n none (x0) (x4)) (broadcastInDim S800000x1 ![0] bcast_S800000_S800000x1_0 (select (cmpi .slt (x1) (broadcastInDim S800000 ![] bcast_S_S800000 (constantI S_ 32 0#32))) (addi (x1) (broadcastInDim S800000 ![] bcast_S_S800000 (constantI S_ 32 50000#32))) (x1)))))) (broadcastInDim S50000x64 ![0, 1] bcast_S1x64_S50000x64_0_1 (broadcastInDim S1x64 ![1] bcast_S64_S1x64_1 (x5)))
        : (⟨S50000x64, .f32⟩ : BufTy).Contents (Elt Ideal)) (ix2 i g)
      = Cert.Spec.G x0 x1 x2 x3 x4 x5 i g :=
  (congrFun (val_main_v16_eq (F := Ideal) x0 x1 x2 x3 x4 x5) (ix2 i g)).trans (ref_eq_G x0 x1 x2 x3 x4 x5 hsrc i g)

end Cert.ReferenceIdeal.RefValue

end
-- ==== Proof.Pre.lean ====
import proofs.«405544_j71923522339430_1_alg».proof.Proof.Gen.Pre_finite_inputs
import proofs.«405544_j71923522339430_1_alg».proof.Proof.Spec
import Idealize.ShloMosaic.Lib.ReduceAll
import Idealize.ShloMosaic.Lib.StableHlo.Predicate
import Idealize.ShloMosaic.PureOps.Ideal

set_option maxRecDepth 16384

noncomputable section

namespace Cert.PreDecode

open Idealize.ShloMosaic Idealize.ShloMosaic.ValueIdx
open Cert.Pre_finite_inputs

theorem subsingleton_scalar_idx : Subsingleton S_.Idx := ⟨fun a b => funext fun d => d.elim0⟩
local instance : Subsingleton S_.Idx := subsingleton_scalar_idx

theorem range_of_test (w : BitVec 32)
    (h : IntOp.andi (IntOp.cmpi .sge w 0#32) (IntOp.cmpi .slt w 50000#32) = 1#1) :
    0 ≤ w.toInt ∧ w.toInt < 50000 := by
  obtain ⟨hge, hlt⟩ := IntOp.andi_eq_one.1 h
  rw [IntOp.cmpi_sge, show (0#32 : BitVec 32).toInt = 0 from by decide] at hge
  rw [IntOp.cmpi_slt, show (50000#32 : BitVec 32).toInt = 50000 from by decide] at hlt
  exact ⟨hge, hlt⟩

/-- The precondition's last conjunct, read entry by entry: every source word is a node number. -/
theorem src_in_range [Cert.Pre_finite_inputs.Facts]
    (x0 : FVec Ideal Cert.Pre_finite_inputs.S50000x128 .f32) (x1 x2 : IVec Cert.Pre_finite_inputs.S800000 32)
    (x3 : FVec Ideal Cert.Pre_finite_inputs.S800000 .f32) (x4 : FVec Ideal Cert.Pre_finite_inputs.S128x64 .f32)
    (x5 : FVec Ideal Cert.Pre_finite_inputs.S64 .f32)
    (h : Cert.Pre_finite_inputs.fn (F := Ideal) x0 x1 x2 x3 x4 x5 = fun _ => 1#1) : Cert.Spec.SrcInRange x1 := by
  have h0 := congrFun h ix0
  dsimp only [fn, fn_part1] at h0
  change IntOp.andi _ _ = 1#1 at h0
  exact fun e => range_of_test (x1 (ix1 e)) (Host.reduce_andi_all _ _ _ _ _ (IntOp.andi_eq_one.1 h0).2 (ix1 e))

end Cert.PreDecode

end
-- ==== Proof.lean ====
/-
  out[i] = Σ over the edges e with dst e = i of val e · (x[src e] · W), plus the bias.

  The kernel forms it on zero-padded arrays: the projection x · W by row blocks; every edge's source row as a sum, over all
  padded nodes, of a 0/1 weight (source word = node number) times the projected row, scaled by the edge value; every node's
  total as a sum, over all padded edges, of a 0/1 weight (destination word = node number) times the edge's message.  A sum
  against a 0/1 weight that is one at exactly one index is the term at that index, and a padded edge's message is zero, so
  both programs compute one function of the arguments wherever every source word names a node.
-/
import proofs.«405544_j71923522339430_1_alg».proof.Defs
import proofs.«405544_j71923522339430_1_alg».proof.Proof.Gen.Kernel
import proofs.«405544_j71923522339430_1_alg».proof.Proof.Gen.KernelIdeal
import proofs.«405544_j71923522339430_1_alg».proof.Proof.Gen.ReferenceIdeal
import proofs.«405544_j71923522339430_1_alg».proof.Proof.Gen.Pre_finite_inputs
import proofs.«405544_j71923522339430_1_alg».proof.Proof.KB.Run
import proofs.«405544_j71923522339430_1_alg».proof.Proof.KI.Final
import proofs.«405544_j71923522339430_1_alg».proof.Proof.Ref
import proofs.«405544_j71923522339430_1_alg».proof.Proof.Pre
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section Claims

variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Conv.frame m ρ

theorem frame_ki : Cert.frame_KernelIdeal := fun m ρ _ => Cert.KernelIdeal.Conv.frame m ρ

theorem frame_ri : Cert.frame_ReferenceIdeal := fun m ρ _ =>
  (θ_run Cert.ReferenceIdeal.defs _ _).mono (fun _ h c => (h c).2) (Cert.ReferenceIdeal.Value.run (F := Ideal) m ρ)

def result (m : (ℓ : Loc Cert.KernelIdeal.nD Cert.KernelIdeal.τ Cert.KernelIdeal.sig) → Buf (Elt Ideal) ℓ)
    (c : Dev Cert.KernelIdeal.nD) : Cert.KernelIdeal.S50000x64.Idx → EReal :=
  fun j => Cert.Spec.G (Cert.KernelIdeal.Conv.aX m c) (Cert.KernelIdeal.Conv.aSrc m c) (Cert.KernelIdeal.Conv.aDst m c)
    (Cert.KernelIdeal.Conv.aVal m c) (Cert.KernelIdeal.Conv.aW m c) (Cert.KernelIdeal.Conv.aB m c) (j 0) (j 1)

theorem algebraic : Cert.algebraic_KernelIdeal_ReferenceIdeal := by
  intro m ρ m' ρ' hpre hagree
  refine ⟨result m, ?_, ?_⟩
  ·
    refine (θ_run Cert.KernelIdeal.defs _ _).mono (fun r h c => ?_) (Cert.KernelIdeal.Conv.run_all m ρ)
    have hsrc := Cert.PreDecode.src_in_range _ _ _ _ _ _ (hpre c)
    refine ⟨?_, (h c _ (Cert.KernelIdeal.Conv.mem_uc Cert.KernelIdeal.main_arg0 (by decide))).trans (Cert.KernelIdeal.Conv.W12_arg0 m c),
      (h c _ (Cert.KernelIdeal.Conv.mem_uc Cert.KernelIdeal.main_arg1 (by decide))).trans (Cert.KernelIdeal.Conv.W12_arg1 m c),
      (h c _ (Cert.KernelIdeal.Conv.mem_uc Cert.KernelIdeal.main_arg2 (by decide))).trans (Cert.KernelIdeal.Conv.W12_arg2 m c),
      (h c _ (Cert.KernelIdeal.Conv.mem_uc Cert.KernelIdeal.main_arg3 (by decide))).trans (Cert.KernelIdeal.Conv.W12_arg3 m c),
      (h c _ (Cert.KernelIdeal.Conv.mem_uc Cert.KernelIdeal.main_arg4 (by decide))).trans (Cert.KernelIdeal.Conv.W12_arg4 m c),
      (h c _ (Cert.KernelIdeal.Conv.mem_uc Cert.KernelIdeal.main_arg5 (by decide))).trans (Cert.KernelIdeal.Conv.W12_arg5 m c)⟩
    refine (h c _ (Cert.KernelIdeal.Conv.mem_uc Cert.KernelIdeal.main_v7 (by decide))).trans ?_
    funext j
    obtain ⟨i, g, rfl⟩ : ∃ (i : Fin 50000) (g : Fin 64), j = ix2 i g := ⟨j 0, j 1, eq_ix2 j⟩
    exact Cert.KernelIdeal.Conv.result_eq_G m c hsrc i g
  ·
    refine (θ_run Cert.ReferenceIdeal.defs _ _).mono (fun r h c => ⟨?_, (h c).2⟩)
      (Cert.ReferenceIdeal.Value.run (F := Ideal) m' ρ')
    have hsrc := Cert.PreDecode.src_in_range _ _ _ _ _ _ (hpre c)
    rw [(h c).1]
    funext j
    obtain ⟨i, g, rfl⟩ : ∃ (i : Fin 50000) (g : Fin 64), j = ix2 i g := ⟨j 0, j 1, eq_ix2 j⟩
    obtain ⟨e0, e1, e2, e3, e4, e5⟩ := hagree c
    have := Cert.ReferenceIdeal.RefValue.run_term_eq_G
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (by rw [e1]; exact hsrc) i g
    refine this.trans ?_
    show Cert.Spec.G _ _ _ _ _ _ i g = Cert.Spec.G _ _ _ _ _ _ ((ix2 i g : Cert.KernelIdeal.S50000x64.Idx) 0) ((ix2 i g : Cert.KernelIdeal.S50000x64.Idx) 1)
    rw [e0, e1, e2, e3, e4, e5]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
